-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)) →
    ∃ (v0 : (c : Dev Cert.KernelIdeal.nD) → Buf (Elt Ideal) ((c.tc : Thread Cert.KernelIdeal.nD Cert.KernelIdeal.τ).loc Cert.KernelIdeal.main_v74)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v74) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v161) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x256 : Shape := ⟨2, ![20000, 256]⟩
abbrev S2x320000 : Shape := ⟨2, ![2, 320000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S20000x256 : S_.BroadcastsInDim S20000x256 (![] : Fin 0 → Fin S20000x256.rank)
  reducesTo_S20000x256_S_d0_1 : S20000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S2x320000 : S_.BroadcastsInDim S2x320000 (![] : Fin 0 → Fin S2x320000.rank)
  reducesTo_S2x320000_S_d0_1 : S2x320000.ReducesTo [0, 1] S_

variable [Facts]

def fn_part7 {F : FTy → Type} [FloatOps F] (main_arg1 : IVec S2x320000 32) (main_v118 : IVec S_ 1) (main_v119 : FVec F S64 .f32) : IVec S_ 1 :=
  let main_cst_46 : FVec F S_ .f32 := constant S_ .f32 0x7F800000#32
  let main_v120 : FVec F S64 .f32 := broadcastInDim S64 ![] bcast_S_S64 main_cst_46
  let main_v121 : IVec S64 1 := cmpf .olt main_v119 main_v120
  let main_c_47 : IVec S_ 1 := constantI S_ 1 1#1
  let main_v122 : IVec S_ 1 := (fun x v => Host.reduce IntOp.andi x v reducesTo_S64_S_d0 h_S_) main_v121 main_c_47
  let main_v123 : IVec S_ 1 := andi main_v118 main_v122
  let main_c_48 : IVec S_ 32 := constantI S_ 32 0#32
  let main_v124 : IVec S2x320000 32 := broadcastInDim S2x320000 ![] bcast_S_S2x320000 main_c_48
  let main_v125 : IVec S2x320000 1 := cmpi .sge main_arg1 main_v124
  let main_c_49 : IVec S_ 1 := constantI S_ 1 1#1
  let main_v126 : IVec S_ 1 := (fun x v => Host.reduce IntOp.andi x v reducesTo_S2x320000_S_d0_1 h_S_) main_v125 main_c_49
  let main_v127 : IVec S_ 1 := andi main_v123 main_v126
  let main_c_50 : IVec S_ 32 := constantI S_ 32 20000#32
  let main_v128 : IVec S2x320000 32 := broadcastInDim S2x320000 ![] bcast_S_S2x320000 main_c_50
  let main_v129 : IVec S2x320000 1 := cmpi .slt main_arg1 main_v128
  let main_c_51 : IVec S_ 1 := constantI S_ 1 1#1
  let main_v130 : IVec S_ 1 := (fun x v => Host.reduce IntOp.andi x v reducesTo_S2x320000_S_d0_1 h_S_) main_v129 main_c_51
  let main_v131 : IVec S_ 1 := andi main_v127 main_v130
  main_v131

def fn_part6 {F : FTy → Type} [FloatOps F] (main_arg1 : IVec S2x320000 32) (main_arg22 : FVec F S256x128 .f32) (main_arg23 : FVec F S128 .f32) (main_arg24 : FVec F S128x64 .f32) (main_arg25 : FVec F S64 .f32) (main_v98 : IVec S_ 1) (main_v101 : IVec S256 1) (main_c_39 : IVec S_ 1) : IVec S_ 1 :=
  let main_v102 : IVec S_ 1 := (fun x v => Host.reduce IntOp.andi x v reducesTo_S256_S_d0 h_S_) main_v101 main_c_39
  let main_v103 : IVec S_ 1 := andi main_v98 main_v102
  let main_v104 : FVec F S256x128 .f32 := Host.absf main_arg22
  let main_cst_40 : FVec F S_ .f32 := constant S_ .f32 0x7F800000#32
  let main_v105 : FVec F S256x128 .f32 := broadcastInDim S256x128 ![] bcast_S_S256x128 main_cst_40
  let main_v106 : IVec S256x128 1 := cmpf .olt main_v104 main_v105
  let main_c_41 : IVec S_ 1 := constantI S_ 1 1#1
  let main_v107 : IVec S_ 1 := (fun x v => Host.reduce IntOp.andi x v reducesTo_S256x128_S_d0_1 h_S_) main_v106 main_c_41
  let main_v108 : IVec S_ 1 := andi main_v103 main_v107
  let main_v109 : FVec F S128 .f32 := Host.absf main_arg23
  let main_cst_42 : FVec F S_ .f32 := constant S_ .f32 0x7F800000#32
  let main_v110 : FVec F S128 .f32 := broadcastInDim S128 ![] bcast_S_S128 main_cst_42
  let main_v111 : IVec S128 1 := cmpf .olt main_v109 main_v110
  let main_c_43 : IVec S_ 1 := constantI S_ 1 1#1
  let main_v112 : IVec S_ 1 := (fun x v => Host.reduce IntOp.andi x v reducesTo_S128_S_d0 h_S_) main_v111 main_c_43
  let main_v113 : IVec S_ 1 := andi main_v108 main_v112
  let main_v114 : FVec F S128x64 .f32 := Host.absf main_arg24
  let main_cst_44 : FVec F S_ .f32 := constant S_ .f32 0x7F800000#32
  let main_v115 : FVec F S128x64 .f32 := broadcastInDim S128x64 ![] bcast_S_S128x64 main_cst_44
  let main_v116 : IVec S128x64 1 := cmpf .olt main_v114 main_v115
  let main_c_45 : IVec S_ 1 := constantI S_ 1 1#1
  let main_v117 : IVec S_ 1 := (fun x v => Host.reduce IntOp.andi x v reducesTo_S128x64_S_d0_1 h_S_) main_v116 main_c_45
  let main_v118 : IVec S_ 1 := andi main_v113 main_v117
  let main_v119 : FVec F S64 .f32 := Host.absf main_arg25
  fn_part7 (F := F) main_arg1 main_v118 main_v119

def fn_part5 {F : FTy → Type} [FloatOps F] (main_arg1 : IVec S2x320000 32) (main_arg19 : FVec F S64 .f32) (main_arg20 : FVec F S256x256 .f32) (main_arg21 : FVec F S256 .f32) (main_arg22 : FVec F S256x128 .f32) (main_arg23 : FVec F S128 .f32) (main_arg24 : FVec F S128x64 .f32) (main_arg25 : FVec F S64 .f32) (main_v83 : IVec S_ 1) (main_v84 : FVec F S128x64 .f32) (main_cst_32 : FVec F S_ .f32) : IVec S_ 1 :=
  let main_v85 : FVec F S128x64 .f32 := broadcastInDim S128x64 ![] bcast_S_S128x64 main_cst_32
  let main_v86 : IVec S128x64 1 := cmpf .olt main_v84 main_v85
  let main_c_33 : IVec S_ 1 := constantI S_ 1 1#1
  let main_v87 : IVec S_ 1 := (fun x v => Host.reduce IntOp.andi x v reducesTo_S128x64_S_d0_1 h_S_) main_v86 main_c_33
  let main_v88 : IVec S_ 1 := andi main_v83 main_v87
  let main_v89 : FVec F S64 .f32 := Host.absf main_arg19
  let main_cst_34 : FVec F S_ .f32 := constant S_ .f32 0x7F800000#32
  let main_v90 : FVec F S64 .f32 := broadcastInDim S64 ![] bcast_S_S64 main_cst_34
  let main_v91 : IVec S64 1 := cmpf .olt main_v89 main_v90
  let main_c_35 : IVec S_ 1 := constantI S_ 1 1#1
  let main_v92 : IVec S_ 1 := (fun x v => Host.reduce IntOp.andi x v reducesTo_S64_S_d0 h_S_) main_v91 main_c_35
  let main_v93 : IVec S_ 1 := andi main_v88 main_v92
  let main_v94 : FVec F S256x256 .f32 := Host.absf main_arg20
  let main_cst_36 : FVec F S_ .f32 := constant S_ .f32 0x7F800000#32
  let main_v95 : FVec F S256x256 .f32 := broadcastInDim S256x256 ![] bcast_S_S256x256 main_cst_36
  let main_v96 : IVec S256x256 1 := cmpf .olt main_v94 main_v95
  let main_c_37 : IVec S_ 1 := constantI S_ 1 1#1
  let main_v97 : IVec S_ 1 := (fun x v => Host.reduce IntOp.andi x v reducesTo_S256x256_S_d0_1 h_S_) main_v96 main_c_37
  let main_v98 : IVec S_ 1 := andi main_v93 main_v97
  let main_v99 : FVec F S256 .f32 := Host.absf main_arg21
  let main_cst_38 : FVec F S_ .f32 := constant S_ .f32 0x7F800000#32
  let main_v100 : FVec F S256 .f32 := broadcastInDim S256 ![] bcast_S_S256 main_cst_38
  let main_v101 : IVec S256 1 := cmpf .olt main_v99 main_v100
  let main_c_39 : IVec S_ 1 := constantI S_ 1 1#1
  fn_part6 (F := F) main_arg1 main_arg22 main_arg23 main_arg24 main_arg25 main_v98 main_v101 main_c_39

def fn_part4 {F : FTy → Type} [FloatOps F] (main_arg1 : IVec S2x320000 32) (main_arg15 : FVec F S64 .f32) (main_arg16 : FVec F S128x64 .f32) (main_arg17 : FVec F S64 .f32) (main_arg18 : FVec F S128x64 .f32) (main_arg19 : FVec F S64 .f32) (main_arg20 : FVec F S256x256 .f32) (main_arg21 : FVec F S256 .f32) (main_arg22 : FVec F S256x128 .f32) (main_arg23 : FVec F S128 .f32) (main_arg24 : FVec F S128x64 .f32) (main_arg25 : FVec F S64 .f32) (main_v63 : IVec S_ 1) (main_v67 : IVec S_ 1) : IVec S_ 1 :=
  let main_v68 : IVec S_ 1 := andi main_v63 main_v67
  let main_v69 : FVec F S64 .f32 := Host.absf main_arg15
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S128x64 .f32 := Host.absf main_arg16
  let main_cst_28 : FVec F S_ .f32 := constant S_ .f32 0x7F800000#32
  let main_v75 : FVec F S128x64 .f32 := broadcastInDim S128x64 ![] bcast_S_S128x64 main_cst_28
  let main_v76 : IVec S128x64 1 := cmpf .olt main_v74 main_v75
  let main_c_29 : IVec S_ 1 := constantI S_ 1 1#1
  let main_v77 : IVec S_ 1 := (fun x v => Host.reduce IntOp.andi x v reducesTo_S128x64_S_d0_1 h_S_) main_v76 main_c_29
  let main_v78 : IVec S_ 1 := andi main_v73 main_v77
  let main_v79 : FVec F S64 .f32 := Host.absf main_arg17
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  let main_v84 : FVec F S128x64 .f32 := Host.absf main_arg18
  let main_cst_32 : FVec F S_ .f32 := constant S_ .f32 0x7F800000#32
  fn_part5 (F := F) main_arg1 main_arg19 main_arg20 main_arg21 main_arg22 main_arg23 main_arg24 main_arg25 main_v83 main_v84 main_cst_32

def fn_part3 {F : FTy → Type} [FloatOps F] (main_arg1 : IVec S2x320000 32) (main_arg12 : FVec F S256x128 .f32) (main_arg13 : FVec F S128 .f32) (main_arg14 : FVec F S128x64 .f32) (main_arg15 : FVec F S64 .f32) (main_arg16 : FVec F S128x64 .f32) (main_arg17 : FVec F S64 .f32) (main_arg18 : FVec F S128x64 .f32) (main_arg19 : FVec F S64 .f32) (main_arg20 : FVec F S256x256 .f32) (main_arg21 : FVec F S256 .f32) (main_arg22 : FVec F S256x128 .f32) (main_arg23 : FVec F S128 .f32) (main_arg24 : FVec F S128x64 .f32) (main_arg25 : FVec F S64 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S256x128 .f32 := Host.absf main_arg12
  let main_cst_20 : FVec F S_ .f32 := constant S_ .f32 0x7F800000#32
  let main_v55 : FVec F S256x128 .f32 := broadcastInDim S256x128 ![] bcast_S_S256x128 main_cst_20
  let main_v56 : IVec S256x128 1 := cmpf .olt main_v54 main_v55
  let main_c_21 : IVec S_ 1 := constantI S_ 1 1#1
  let main_v57 : IVec S_ 1 := (fun x v => Host.reduce IntOp.andi x v reducesTo_S256x128_S_d0_1 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x64 .f32 := Host.absf main_arg14
  let main_cst_24 : FVec F S_ .f32 := constant S_ .f32 0x7F800000#32
  let main_v65 : FVec F S128x64 .f32 := broadcastInDim S128x64 ![] bcast_S_S128x64 main_cst_24
  let main_v66 : IVec S128x64 1 := cmpf .olt main_v64 main_v65
  let main_c_25 : IVec S_ 1 := constantI S_ 1 1#1
  let main_v67 : IVec S_ 1 := (fun x v => Host.reduce IntOp.andi x v reducesTo_S128x64_S_d0_1 h_S_) main_v66 main_c_25
  fn_part4 (F := F) main_arg1 main_arg15 main_arg16 main_arg17 main_arg18 main_arg19 main_arg20 main_arg21 main_arg22 main_arg23 main_arg24 main_arg25 main_v63 main_v67

def fn_part2 {F : FTy → Type} [FloatOps F] (main_arg1 : IVec S2x320000 32) (main_arg8 : FVec F S256x128 .f32) (main_arg9 : FVec F S128 .f32) (main_arg10 : FVec F S256x128 .f32) (main_arg11 : FVec F S128 .f32) (main_arg12 : FVec F S256x128 .f32) (main_arg13 : FVec F S128 .f32) (main_arg14 : FVec F S128x64 .f32) (main_arg15 : FVec F S64 .f32) (main_arg16 : FVec F S128x64 .f32) (main_arg17 : FVec F S64 .f32) (main_arg18 : FVec F S128x64 .f32) (main_arg19 : FVec F S64 .f32) (main_arg20 : FVec F S256x256 .f32) (main_arg21 : FVec F S256 .f32) (main_arg22 : FVec F S256x128 .f32) (main_arg23 : FVec F S128 .f32) (main_arg24 : FVec F S128x64 .f32) (main_arg25 : FVec F S64 .f32) (main_v33 : IVec S_ 1) : IVec S_ 1 :=
  let main_v34 : FVec F S256x128 .f32 := Host.absf main_arg8
  let main_cst_12 : FVec F S_ .f32 := constant S_ .f32 0x7F800000#32
  let main_v35 : FVec F S256x128 .f32 := broadcastInDim S256x128 ![] bcast_S_S256x128 main_cst_12
  let main_v36 : IVec S256x128 1 := cmpf .olt main_v34 main_v35
  let main_c_13 : IVec S_ 1 := constantI S_ 1 1#1
  let main_v37 : IVec S_ 1 := (fun x v => Host.reduce IntOp.andi x v reducesTo_S256x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S256x128 .f32 := Host.absf main_arg10
  let main_cst_16 : FVec F S_ .f32 := constant S_ .f32 0x7F800000#32
  let main_v45 : FVec F S256x128 .f32 := broadcastInDim S256x128 ![] bcast_S_S256x128 main_cst_16
  let main_v46 : IVec S256x128 1 := cmpf .olt main_v44 main_v45
  let main_c_17 : IVec S_ 1 := constantI S_ 1 1#1
  let main_v47 : IVec S_ 1 := (fun x v => Host.reduce IntOp.andi x v reducesTo_S256x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg1 main_arg12 main_arg13 main_arg14 main_arg15 main_arg16 main_arg17 main_arg18 main_arg19 main_arg20 main_arg21 main_arg22 main_arg23 main_arg24 main_arg25 main_v48 main_v49 main_v50

def fn_part1 {F : FTy → Type} [FloatOps F] (main_arg1 : IVec S2x320000 32) (main_arg5 : FVec F S256 .f32) (main_arg6 : FVec F S256x256 .f32) (main_arg7 : FVec F S256 .f32) (main_arg8 : FVec F S256x128 .f32) (main_arg9 : FVec F S128 .f32) (main_arg10 : FVec F S256x128 .f32) (main_arg11 : FVec F S128 .f32) (main_arg12 : FVec F S256x128 .f32) (main_arg13 : FVec F S128 .f32) (main_arg14 : FVec F S128x64 .f32) (main_arg15 : FVec F S64 .f32) (main_arg16 : FVec F S128x64 .f32) (main_arg17 : FVec F S64 .f32) (main_arg18 : FVec F S128x64 .f32) (main_arg19 : FVec F S64 .f32) (main_arg20 : FVec F S256x256 .f32) (main_arg21 : FVec F S256 .f32) (main_arg22 : FVec F S256x128 .f32) (main_arg23 : FVec F S128 .f32) (main_arg24 : FVec F S128x64 .f32) (main_arg25 : FVec F S64 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg6
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg1 main_arg8 main_arg9 main_arg10 main_arg11 main_arg12 main_arg13 main_arg14 main_arg15 main_arg16 main_arg17 main_arg18 main_arg19 main_arg20 main_arg21 main_arg22 main_arg23 main_arg24 main_arg25 main_v33

def fn {F : FTy → Type} [FloatOps F] (main_arg0 : FVec F S20000x256 .f32) (main_arg1 : IVec S2x320000 32) (main_arg2 : FVec F S256x256 .f32) (main_arg3 : FVec F S256 .f32) (main_arg4 : FVec F S256x256 .f32) (main_arg5 : FVec F S256 .f32) (main_arg6 : FVec F S256x256 .f32) (main_arg7 : FVec F S256 .f32) (main_arg8 : FVec F S256x128 .f32) (main_arg9 : FVec F S128 .f32) (main_arg10 : FVec F S256x128 .f32) (main_arg11 : FVec F S128 .f32) (main_arg12 : FVec F S256x128 .f32) (main_arg13 : FVec F S128 .f32) (main_arg14 : FVec F S128x64 .f32) (main_arg15 : FVec F S64 .f32) (main_arg16 : FVec F S128x64 .f32) (main_arg17 : FVec F S64 .f32) (main_arg18 : FVec F S128x64 .f32) (main_arg19 : FVec F S64 .f32) (main_arg20 : FVec F S256x256 .f32) (main_arg21 : FVec F S256 .f32) (main_arg22 : FVec F S256x128 .f32) (main_arg23 : FVec F S128 .f32) (main_arg24 : FVec F S128x64 .f32) (main_arg25 : FVec F S64 .f32) : IVec S_ 1 :=
  let main_v0 : FVec F S20000x256 .f32 := Host.absf main_arg0
  let main_cst : FVec F S_ .f32 := constant S_ .f32 0x7F800000#32
  let main_v1 : FVec F S20000x256 .f32 := broadcastInDim S20000x256 ![] bcast_S_S20000x256 main_cst
  let main_v2 : IVec S20000x256 1 := cmpf .olt main_v0 main_v1
  let main_c : IVec S_ 1 := constantI S_ 1 1#1
  let main_v3 : IVec S_ 1 := (fun x v => Host.reduce IntOp.andi x v reducesTo_S20000x256_S_d0_1 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg1 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_v13 main_v16
-- ==== Kernel.lean ====
abbrev S20000x256 : Shape := ⟨2, ![20000, 256]⟩
abbrev S2x320000 : Shape := ⟨2, ![2, 320000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S1x320000 : Shape := ⟨2, ![1, 320000]⟩
abbrev S320000 : Shape := ⟨1, ![320000]⟩
abbrev S256x1024 : Shape := ⟨2, ![256, 1024]⟩
abbrev S_ : Shape := ⟨0, ![]⟩
abbrev S1024 : Shape := ⟨1, ![1024]⟩
abbrev S1x1024 : Shape := ⟨2, ![1, 1024]⟩
abbrev S20000x1024 : Shape := ⟨2, ![20000, 1024]⟩
abbrev S1000x256 : Shape := ⟨2, ![1000, 256]⟩
abbrev S1000x1024 : Shape := ⟨2, ![1000, 1024]⟩
abbrev S320000x1 : Shape := ⟨2, ![320000, 1]⟩
abbrev S1 : Shape := ⟨1, ![1]⟩
abbrev S1x1 : Shape := ⟨2, ![1, 1]⟩
abbrev S320000x256 : Shape := ⟨2, ![320000, 256]⟩
abbrev S2000x256 : Shape := ⟨2, ![2000, 256]⟩
abbrev S1x256 : Shape := ⟨2, ![1, 256]⟩
abbrev S256x512 : Shape := ⟨2, ![256, 512]⟩
abbrev S512 : Shape := ⟨1, ![512]⟩
abbrev S1x512 : Shape := ⟨2, ![1, 512]⟩
abbrev S20000x512 : Shape := ⟨2, ![20000, 512]⟩
abbrev S1000x512 : Shape := ⟨2, ![1000, 512]⟩
abbrev S20000x128 : Shape := ⟨2, ![20000, 128]⟩
abbrev S320000x128 : Shape := ⟨2, ![320000, 128]⟩
abbrev S2000x128 : Shape := ⟨2, ![2000, 128]⟩
abbrev S1x128 : Shape := ⟨2, ![1, 128]⟩
abbrev S128x256 : Shape := ⟨2, ![128, 256]⟩
abbrev S1000x128 : Shape := ⟨2, ![1000, 128]⟩
abbrev S20000x64 : Shape := ⟨2, ![20000, 64]⟩
abbrev S320000x64 : Shape := ⟨2, ![320000, 64]⟩
abbrev S2000x64 : Shape := ⟨2, ![2000, 64]⟩
abbrev S1x64 : Shape := ⟨2, ![1, 64]⟩
abbrev S20000 : Shape := ⟨1, ![20000]⟩
abbrev S20000x1 : Shape := ⟨2, ![20000, 1]⟩

abbrev nBuf : Space → Nat
  | .hbm => 308
  | .vmem => 42
  | .smem => 0
  | _ => 0

abbrev hbmTy0_0 (i : Nat) : BufTy := match i % 128 with
  | 0 => ⟨S20000x256, .f32⟩
  | 1 => ⟨S2x320000, .i32⟩
  | 2 => ⟨S256x256, .f32⟩
  | 3 => ⟨S256, .f32⟩
  | 4 => ⟨S256x256, .f32⟩
  | 5 => ⟨S256, .f32⟩
  | 6 => ⟨S256x256, .f32⟩
  | 7 => ⟨S256, .f32⟩
  | 8 => ⟨S256x128, .f32⟩
  | 9 => ⟨S128, .f32⟩
  | 10 => ⟨S256x128, .f32⟩
  | 11 => ⟨S128, .f32⟩
  | 12 => ⟨S256x128, .f32⟩
  | 13 => ⟨S128, .f32⟩
  | 14 => ⟨S128x64, .f32⟩
  | 15 => ⟨S64, .f32⟩
  | 16 => ⟨S128x64, .f32⟩
  | 17 => ⟨S64, .f32⟩
  | 18 => ⟨S128x64, .f32⟩
  | 19 => ⟨S64, .f32⟩
  | 20 => ⟨S256x256, .f32⟩
  | 21 => ⟨S256, .f32⟩
  | 22 => ⟨S256x128, .f32⟩
  | 23 => ⟨S128, .f32⟩
  | 24 => ⟨S128x64, .f32⟩
  | 25 => ⟨S64, .f32⟩
  | 26 => ⟨S1x320000, .i32⟩
  | 27 => ⟨S320000, .i32⟩
  | 28 => ⟨S1x320000, .i32⟩
  | 29 => ⟨S320000, .i32⟩
  | 30 => ⟨S256x1024, .f32⟩
  | 31 => ⟨S_, .f32⟩
  | 32 => ⟨S256, .f32⟩
  | 33 => ⟨S1024, .f32⟩
  | 34 => ⟨S1x1024, .f32⟩
  | 35 => ⟨S20000x1024, .f32⟩
  | 36 => ⟨S20000x256, .f32⟩
  | 37 => ⟨S20000x256, .f32⟩
  | 38 => ⟨S20000x256, .f32⟩
  | 39 => ⟨S20000x256, .f32⟩
  | 40 => ⟨S_, .i32⟩
  | 41 => ⟨S320000, .i32⟩
  | 42 => ⟨S320000, .i1⟩
  | 43 => ⟨S_, .i32⟩
  | 44 => ⟨S320000, .i32⟩
  | 45 => ⟨S320000, .i32⟩
  | 46 => ⟨S320000, .i32⟩
  | 47 => ⟨S320000x1, .i32⟩
  | 48 => ⟨S1, .i32⟩
  | 49 => ⟨S_, .i32⟩
  | 50 => ⟨S320000x1, .i32⟩
  | 51 => ⟨S320000x1, .i1⟩
  | 52 => ⟨S1x1, .i32⟩
  | 53 => ⟨S320000x1, .i32⟩
  | 54 => ⟨S320000x1, .i1⟩
  | 55 => ⟨S320000x1, .i1⟩
  | 56 => ⟨S_, .i1⟩
  | 57 => ⟨S320000, .i1⟩
  | 58 => ⟨S320000x256, .f32⟩
  | 59 => ⟨S320000x256, .i1⟩
  | 60 => ⟨S_, .f32⟩
  | 61 => ⟨S320000x256, .f32⟩
  | 62 => ⟨S320000x256, .f32⟩
  | 63 => ⟨S_, .i32⟩
  | 64 => ⟨S320000, .i32⟩
  | 65 => ⟨S320000, .i1⟩
  | 66 => ⟨S_, .i32⟩
  | 67 => ⟨S320000, .i32⟩
  | 68 => ⟨S320000, .i32⟩
  | 69 => ⟨S320000, .i32⟩
  | 70 => ⟨S320000x1, .i32⟩
  | 71 => ⟨S1, .i32⟩
  | 72 => ⟨S_, .i32⟩
  | 73 => ⟨S320000x1, .i32⟩
  | 74 => ⟨S320000x1, .i1⟩
  | 75 => ⟨S1x1, .i32⟩
  | 76 => ⟨S320000x1, .i32⟩
  | 77 => ⟨S320000x1, .i1⟩
  | 78 => ⟨S320000x1, .i1⟩
  | 79 => ⟨S_, .i1⟩
  | 80 => ⟨S320000, .i1⟩
  | 81 => ⟨S320000x256, .f32⟩
  | 82 => ⟨S320000x256, .i1⟩
  | 83 => ⟨S_, .f32⟩
  | 84 => ⟨S320000x256, .f32⟩
  | 85 => ⟨S320000x256, .f32⟩
  | 86 => ⟨S_, .i32⟩
  | 87 => ⟨S320000, .i32⟩
  | 88 => ⟨S320000, .i1⟩
  | 89 => ⟨S_, .i32⟩
  | 90 => ⟨S320000, .i32⟩
  | 91 => ⟨S320000, .i32⟩
  | 92 => ⟨S320000, .i32⟩
  | 93 => ⟨S320000x1, .i32⟩
  | 94 => ⟨S1, .i32⟩
  | 95 => ⟨S_, .i32⟩
  | 96 => ⟨S320000x1, .i32⟩
  | 97 => ⟨S320000x1, .i1⟩
  | 98 => ⟨S1x1, .i32⟩
  | 99 => ⟨S320000x1, .i32⟩
  | 100 => ⟨S320000x1, .i1⟩
  | 101 => ⟨S320000x1, .i1⟩
  | 102 => ⟨S_, .i1⟩
  | 103 => ⟨S320000, .i1⟩
  | 104 => ⟨S320000x256, .f32⟩
  | 105 => ⟨S320000x256, .i1⟩
  | 106 => ⟨S_, .f32⟩
  | 107 => ⟨S320000x256, .f32⟩
  | 108 => ⟨S320000x256, .f32⟩
  | 109 => ⟨S320000x256, .f32⟩
  | 110 => ⟨S_, .f32⟩
  | 111 => ⟨S20000x256, .f32⟩
  | 112 => ⟨S320000x1, .i32⟩
  | 113 => ⟨S20000x256, .f32⟩
  | 114 => ⟨S20000x256, .f32⟩
  | 115 => ⟨S1x256, .f32⟩
  | 116 => ⟨S20000x256, .f32⟩
  | 117 => ⟨S20000x256, .f32⟩
  | 118 => ⟨S256x512, .f32⟩
  | 119 => ⟨S_, .f32⟩
  | 120 => ⟨S128, .f32⟩
  | 121 => ⟨S512, .f32⟩
  | 122 => ⟨S1x512, .f32⟩
  | 123 => ⟨S20000x512, .f32⟩
  | 124 => ⟨S20000x128, .f32⟩
  | 125 => ⟨S20000x128, .f32⟩
  | 126 => ⟨S20000x128, .f32⟩
  | 127 => ⟨S20000x128, .f32⟩
  | _ => ⟨S20000x256, .f32⟩

abbrev hbmTy0_1 (i : Nat) : BufTy := match i % 128 with
  | 0 => ⟨S_, .i32⟩
  | 1 => ⟨S320000, .i32⟩
  | 2 => ⟨S320000, .i1⟩
  | 3 => ⟨S_, .i32⟩
  | 4 => ⟨S320000, .i32⟩
  | 5 => ⟨S320000, .i32⟩
  | 6 => ⟨S320000, .i32⟩
  | 7 => ⟨S320000x1, .i32⟩
  | 8 => ⟨S1, .i32⟩
  | 9 => ⟨S_, .i32⟩
  | 10 => ⟨S320000x1, .i32⟩
  | 11 => ⟨S320000x1, .i1⟩
  | 12 => ⟨S1x1, .i32⟩
  | 13 => ⟨S320000x1, .i32⟩
  | 14 => ⟨S320000x1, .i1⟩
  | 15 => ⟨S320000x1, .i1⟩
  | 16 => ⟨S_, .i1⟩
  | 17 => ⟨S320000, .i1⟩
  | 18 => ⟨S320000x128, .f32⟩
  | 19 => ⟨S320000x128, .i1⟩
  | 20 => ⟨S_, .f32⟩
  | 21 => ⟨S320000x128, .f32⟩
  | 22 => ⟨S320000x128, .f32⟩
  | 23 => ⟨S_, .i32⟩
  | 24 => ⟨S320000, .i32⟩
  | 25 => ⟨S320000, .i1⟩
  | 26 => ⟨S_, .i32⟩
  | 27 => ⟨S320000, .i32⟩
  | 28 => ⟨S320000, .i32⟩
  | 29 => ⟨S320000, .i32⟩
  | 30 => ⟨S320000x1, .i32⟩
  | 31 => ⟨S1, .i32⟩
  | 32 => ⟨S_, .i32⟩
  | 33 => ⟨S320000x1, .i32⟩
  | 34 => ⟨S320000x1, .i1⟩
  | 35 => ⟨S1x1, .i32⟩
  | 36 => ⟨S320000x1, .i32⟩
  | 37 => ⟨S320000x1, .i1⟩
  | 38 => ⟨S320000x1, .i1⟩
  | 39 => ⟨S_, .i1⟩
  | 40 => ⟨S320000, .i1⟩
  | 41 => ⟨S320000x128, .f32⟩
  | 42 => ⟨S320000x128, .i1⟩
  | 43 => ⟨S_, .f32⟩
  | 44 => ⟨S320000x128, .f32⟩
  | 45 => ⟨S320000x128, .f32⟩
  | 46 => ⟨S_, .i32⟩
  | 47 => ⟨S320000, .i32⟩
  | 48 => ⟨S320000, .i1⟩
  | 49 => ⟨S_, .i32⟩
  | 50 => ⟨S320000, .i32⟩
  | 51 => ⟨S320000, .i32⟩
  | 52 => ⟨S320000, .i32⟩
  | 53 => ⟨S320000x1, .i32⟩
  | 54 => ⟨S1, .i32⟩
  | 55 => ⟨S_, .i32⟩
  | 56 => ⟨S320000x1, .i32⟩
  | 57 => ⟨S320000x1, .i1⟩
  | 58 => ⟨S1x1, .i32⟩
  | 59 => ⟨S320000x1, .i32⟩
  | 60 => ⟨S320000x1, .i1⟩
  | 61 => ⟨S320000x1, .i1⟩
  | 62 => ⟨S_, .i1⟩
  | 63 => ⟨S320000, .i1⟩
  | 64 => ⟨S320000x128, .f32⟩
  | 65 => ⟨S320000x128, .i1⟩
  | 66 => ⟨S_, .f32⟩
  | 67 => ⟨S320000x128, .f32⟩
  | 68 => ⟨S320000x128, .f32⟩
  | 69 => ⟨S320000x128, .f32⟩
  | 70 => ⟨S_, .f32⟩
  | 71 => ⟨S20000x128, .f32⟩
  | 72 => ⟨S320000x1, .i32⟩
  | 73 => ⟨S20000x128, .f32⟩
  | 74 => ⟨S20000x128, .f32⟩
  | 75 => ⟨S1x128, .f32⟩
  | 76 => ⟨S20000x128, .f32⟩
  | 77 => ⟨S20000x128, .f32⟩
  | 78 => ⟨S128x256, .f32⟩
  | 79 => ⟨S_, .f32⟩
  | 80 => ⟨S64, .f32⟩
  | 81 => ⟨S256, .f32⟩
  | 82 => ⟨S1x256, .f32⟩
  | 83 => ⟨S20000x256, .f32⟩
  | 84 => ⟨S20000x64, .f32⟩
  | 85 => ⟨S20000x64, .f32⟩
  | 86 => ⟨S20000x64, .f32⟩
  | 87 => ⟨S20000x64, .f32⟩
  | 88 => ⟨S_, .i32⟩
  | 89 => ⟨S320000, .i32⟩
  | 90 => ⟨S320000, .i1⟩
  | 91 => ⟨S_, .i32⟩
  | 92 => ⟨S320000, .i32⟩
  | 93 => ⟨S320000, .i32⟩
  | 94 => ⟨S320000, .i32⟩
  | 95 => ⟨S320000x1, .i32⟩
  | 96 => ⟨S1, .i32⟩
  | 97 => ⟨S_, .i32⟩
  | 98 => ⟨S320000x1, .i32⟩
  | 99 => ⟨S320000x1, .i1⟩
  | 100 => ⟨S1x1, .i32⟩
  | 101 => ⟨S320000x1, .i32⟩
  | 102 => ⟨S320000x1, .i1⟩
  | 103 => ⟨S320000x1, .i1⟩
  | 104 => ⟨S_, .i1⟩
  | 105 => ⟨S320000, .i1⟩
  | 106 => ⟨S320000x64, .f32⟩
  | 107 => ⟨S320000x64, .i1⟩
  | 108 => ⟨S_, .f32⟩
  | 109 => ⟨S320000x64, .f32⟩
  | 110 => ⟨S320000x64, .f32⟩
  | 111 => ⟨S_, .i32⟩
  | 112 => ⟨S320000, .i32⟩
  | 113 => ⟨S320000, .i1⟩
  | 114 => ⟨S_, .i32⟩
  | 115 => ⟨S320000, .i32⟩
  | 116 => ⟨S320000, .i32⟩
  | 117 => ⟨S320000, .i32⟩
  | 118 => ⟨S320000x1, .i32⟩
  | 119 => ⟨S1, .i32⟩
  | 120 => ⟨S_, .i32⟩
  | 121 => ⟨S320000x1, .i32⟩
  | 122 => ⟨S320000x1, .i1⟩
  | 123 => ⟨S1x1, .i32⟩
  | 124 => ⟨S320000x1, .i32⟩
  | 125 => ⟨S320000x1, .i1⟩
  | 126 => ⟨S320000x1, .i1⟩
  | 127 => ⟨S_, .i1⟩
  | _ => ⟨S20000x256, .f32⟩

abbrev hbmTy0_2 (i : Nat) : BufTy := match i % 128 with
  | 0 => ⟨S320000, .i1⟩
  | 1 => ⟨S320000x64, .f32⟩
  | 2 => ⟨S320000x64, .i1⟩
  | 3 => ⟨S_, .f32⟩
  | 4 => ⟨S320000x64, .f32⟩
  | 5 => ⟨S320000x64, .f32⟩
  | 6 => ⟨S_, .i32⟩
  | 7 => ⟨S320000, .i32⟩
  | 8 => ⟨S320000, .i1⟩
  | 9 => ⟨S_, .i32⟩
  | 10 => ⟨S320000, .i32⟩
  | 11 => ⟨S320000, .i32⟩
  | 12 => ⟨S320000, .i32⟩
  | 13 => ⟨S320000x1, .i32⟩
  | 14 => ⟨S1, .i32⟩
  | 15 => ⟨S_, .i32⟩
  | 16 => ⟨S320000x1, .i32⟩
  | 17 => ⟨S320000x1, .i1⟩
  | 18 => ⟨S1x1, .i32⟩
  | 19 => ⟨S320000x1, .i32⟩
  | 20 => ⟨S320000x1, .i1⟩
  | 21 => ⟨S320000x1, .i1⟩
  | 22 => ⟨S_, .i1⟩
  | 23 => ⟨S320000, .i1⟩
  | 24 => ⟨S320000x64, .f32⟩
  | 25 => ⟨S320000x64, .i1⟩
  | 26 => ⟨S_, .f32⟩
  | 27 => ⟨S320000x64, .f32⟩
  | 28 => ⟨S320000x64, .f32⟩
  | 29 => ⟨S320000x64, .f32⟩
  | 30 => ⟨S_, .f32⟩
  | 31 => ⟨S20000x64, .f32⟩
  | 32 => ⟨S320000x1, .i32⟩
  | 33 => ⟨S20000x64, .f32⟩
  | 34 => ⟨S20000x64, .f32⟩
  | 35 => ⟨S1x64, .f32⟩
  | 36 => ⟨S20000x64, .f32⟩
  | 37 => ⟨S20000x64, .f32⟩
  | 38 => ⟨S_, .f32⟩
  | 39 => ⟨S20000, .f32⟩
  | 40 => ⟨S_, .f32⟩
  | 41 => ⟨S20000, .f32⟩
  | 42 => ⟨S20000, .f32⟩
  | 43 => ⟨S20000x1, .f32⟩
  | 44 => ⟨S20000x64, .f32⟩
  | 45 => ⟨S20000x64, .f32⟩
  | 46 => ⟨S20000x64, .f32⟩
  | 47 => ⟨S_, .f32⟩
  | 48 => ⟨S20000, .f32⟩
  | 49 => ⟨S20000x1, .f32⟩
  | 50 => ⟨S20000x64, .f32⟩
  | 51 => ⟨S20000x64, .f32⟩
  | _ => ⟨S20000x256, .f32⟩

abbrev hbmTy (i : Nat) : BufTy := match i / 128 with
  | 0 => hbmTy0_0 i
  | 1 => hbmTy0_1 i
  | 2 => hbmTy0_2 i
  | _ => ⟨S20000x256, .f32⟩

abbrev bufTy : (tb : Table) → Fin (tcTables nBuf tb) → BufTy
  | .hbm, ⟨i, _⟩ => hbmTy i
  | .local _ .vmem, ⟨0, _⟩ => ⟨S1000x256, .f32⟩
  | .local _ .vmem, ⟨1, _⟩ => ⟨S1000x256, .f32⟩
  | .local _ .vmem, ⟨2, _⟩ => ⟨S256x1024, .f32⟩
  | .local _ .vmem, ⟨3, _⟩ => ⟨S1x1024, .f32⟩
  | .local _ .vmem, ⟨4, _⟩ => ⟨S1000x1024, .f32⟩
  | .local _ .vmem, ⟨5, _⟩ => ⟨S1000x1024, .f32⟩
  | .local _ .vmem, ⟨6, _⟩ => ⟨S2000x256, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S2000x256, .f32⟩
  | .local _ .vmem, ⟨14, _⟩ => ⟨S1000x256, .f32⟩
  | .local _ .vmem, ⟨15, _⟩ => ⟨S1000x256, .f32⟩
  | .local _ .vmem, ⟨16, _⟩ => ⟨S256x512, .f32⟩
  | .local _ .vmem, ⟨17, _⟩ => ⟨S1x512, .f32⟩
  | .local _ .vmem, ⟨18, _⟩ => ⟨S1000x512, .f32⟩
  | .local _ .vmem, ⟨19, _⟩ => ⟨S1000x512, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S2000x128, .f32⟩
  | .local _ .vmem, ⟨26, _⟩ => ⟨S2000x128, .f32⟩
  | .local _ .vmem, ⟨27, _⟩ => ⟨S2000x128, .f32⟩
  | .local _ .vmem, ⟨28, _⟩ => ⟨S1000x128, .f32⟩
  | .local _ .vmem, ⟨29, _⟩ => ⟨S1000x128, .f32⟩
  | .local _ .vmem, ⟨30, _⟩ => ⟨S128x256, .f32⟩
  | .local _ .vmem, ⟨31, _⟩ => ⟨S1x256, .f32⟩
  | .local _ .vmem, ⟨32, _⟩ => ⟨S1000x256, .f32⟩
  | .local _ .vmem, ⟨33, _⟩ => ⟨S1000x256, .f32⟩
  | .local _ .vmem, ⟨34, _⟩ => ⟨S2000x64, .f32⟩
  | .local _ .vmem, ⟨35, _⟩ => ⟨S2000x64, .f32⟩
  | .local _ .vmem, ⟨36, _⟩ => ⟨S2000x64, .f32⟩
  | .local _ .vmem, ⟨37, _⟩ => ⟨S2000x64, .f32⟩
  | .local _ .vmem, ⟨38, _⟩ => ⟨S2000x64, .f32⟩
  | .local _ .vmem, ⟨39, _⟩ => ⟨S2000x64, .f32⟩
  | .local _ .vmem, ⟨40, _⟩ => ⟨S2000x64, .f32⟩
  | .local _ .vmem, ⟨41, _⟩ => ⟨S2000x64, .f32⟩
  | _, _ => ⟨S20000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_cst : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_call0_c : Ref sig .tc := ⟨.hbm, 40, rfl⟩
abbrev main_call0_v0 : Ref sig .tc := ⟨.hbm, 41, rfl⟩
abbrev main_call0_v1 : Ref sig .tc := ⟨.hbm, 42, rfl⟩
abbrev main_call0_c_0 : Ref sig .tc := ⟨.hbm, 43, rfl⟩
abbrev main_call0_v2 : Ref sig .tc := ⟨.hbm, 44, rfl⟩
abbrev main_call0_v3 : Ref sig .tc := ⟨.hbm, 45, rfl⟩
abbrev main_call0_v4 : Ref sig .tc := ⟨.hbm, 46, rfl⟩
abbrev main_call0_v5 : Ref sig .tc := ⟨.hbm, 47, rfl⟩
abbrev main_call0_c_1 : Ref sig .tc := ⟨.hbm, 48, rfl⟩
abbrev main_call0_c_2 : Ref sig .tc := ⟨.hbm, 49, rfl⟩
abbrev main_call0_v6 : Ref sig .tc := ⟨.hbm, 50, rfl⟩
abbrev main_call0_v7 : Ref sig .tc := ⟨.hbm, 51, rfl⟩
abbrev main_call0_v8 : Ref sig .tc := ⟨.hbm, 52, rfl⟩
abbrev main_call0_v9 : Ref sig .tc := ⟨.hbm, 53, rfl⟩
abbrev main_call0_v10 : Ref sig .tc := ⟨.hbm, 54, rfl⟩
abbrev main_call0_v11 : Ref sig .tc := ⟨.hbm, 55, rfl⟩
abbrev main_call0_c_3 : Ref sig .tc := ⟨.hbm, 56, rfl⟩
abbrev main_call0_v12 : Ref sig .tc := ⟨.hbm, 57, rfl⟩
abbrev main_call0_v13 : Ref sig .tc := ⟨.hbm, 58, rfl⟩
abbrev main_call0_v14 : Ref sig .tc := ⟨.hbm, 59, rfl⟩
abbrev main_call0_cst : Ref sig .tc := ⟨.hbm, 60, rfl⟩
abbrev main_call0_v15 : Ref sig .tc := ⟨.hbm, 61, rfl⟩
abbrev main_v13 : Ref sig .tc := ⟨.hbm, 62, rfl⟩
abbrev main_call1_c : Ref sig .tc := ⟨.hbm, 63, rfl⟩
abbrev main_call1_v0 : Ref sig .tc := ⟨.hbm, 64, rfl⟩
abbrev main_call1_v1 : Ref sig .tc := ⟨.hbm, 65, rfl⟩
abbrev main_call1_c_0 : Ref sig .tc := ⟨.hbm, 66, rfl⟩
abbrev main_call1_v2 : Ref sig .tc := ⟨.hbm, 67, rfl⟩
abbrev main_call1_v3 : Ref sig .tc := ⟨.hbm, 68, rfl⟩
abbrev main_call1_v4 : Ref sig .tc := ⟨.hbm, 69, rfl⟩
abbrev main_call1_v5 : Ref sig .tc := ⟨.hbm, 70, rfl⟩
abbrev main_call1_c_1 : Ref sig .tc := ⟨.hbm, 71, rfl⟩
abbrev main_call1_c_2 : Ref sig .tc := ⟨.hbm, 72, rfl⟩
abbrev main_call1_v6 : Ref sig .tc := ⟨.hbm, 73, rfl⟩
abbrev main_call1_v7 : Ref sig .tc := ⟨.hbm, 74, rfl⟩
abbrev main_call1_v8 : Ref sig .tc := ⟨.hbm, 75, rfl⟩
abbrev main_call1_v9 : Ref sig .tc := ⟨.hbm, 76, rfl⟩
abbrev main_call1_v10 : Ref sig .tc := ⟨.hbm, 77, rfl⟩
abbrev main_call1_v11 : Ref sig .tc := ⟨.hbm, 78, rfl⟩
abbrev main_call1_c_3 : Ref sig .tc := ⟨.hbm, 79, rfl⟩
abbrev main_call1_v12 : Ref sig .tc := ⟨.hbm, 80, rfl⟩
abbrev main_call1_v13 : Ref sig .tc := ⟨.hbm, 81, rfl⟩
abbrev main_call1_v14 : Ref sig .tc := ⟨.hbm, 82, rfl⟩
abbrev main_call1_cst : Ref sig .tc := ⟨.hbm, 83, rfl⟩
abbrev main_call1_v15 : Ref sig .tc := ⟨.hbm, 84, rfl⟩
abbrev main_v14 : Ref sig .tc := ⟨.hbm, 85, rfl⟩
abbrev main_call2_c : Ref sig .tc := ⟨.hbm, 86, rfl⟩
abbrev main_call2_v0 : Ref sig .tc := ⟨.hbm, 87, rfl⟩
abbrev main_call2_v1 : Ref sig .tc := ⟨.hbm, 88, rfl⟩
abbrev main_call2_c_0 : Ref sig .tc := ⟨.hbm, 89, rfl⟩
abbrev main_call2_v2 : Ref sig .tc := ⟨.hbm, 90, rfl⟩
abbrev main_call2_v3 : Ref sig .tc := ⟨.hbm, 91, rfl⟩
abbrev main_call2_v4 : Ref sig .tc := ⟨.hbm, 92, rfl⟩
abbrev main_call2_v5 : Ref sig .tc := ⟨.hbm, 93, rfl⟩
abbrev main_call2_c_1 : Ref sig .tc := ⟨.hbm, 94, rfl⟩
abbrev main_call2_c_2 : Ref sig .tc := ⟨.hbm, 95, rfl⟩
abbrev main_call2_v6 : Ref sig .tc := ⟨.hbm, 96, rfl⟩
abbrev main_call2_v7 : Ref sig .tc := ⟨.hbm, 97, rfl⟩
abbrev main_call2_v8 : Ref sig .tc := ⟨.hbm, 98, rfl⟩
abbrev main_call2_v9 : Ref sig .tc := ⟨.hbm, 99, rfl⟩
abbrev main_call2_v10 : Ref sig .tc := ⟨.hbm, 100, rfl⟩
abbrev main_call2_v11 : Ref sig .tc := ⟨.hbm, 101, rfl⟩
abbrev main_call2_c_3 : Ref sig .tc := ⟨.hbm, 102, rfl⟩
abbrev main_call2_v12 : Ref sig .tc := ⟨.hbm, 103, rfl⟩
abbrev main_call2_v13 : Ref sig .tc := ⟨.hbm, 104, rfl⟩
abbrev main_call2_v14 : Ref sig .tc := ⟨.hbm, 105, rfl⟩
abbrev main_call2_cst : Ref sig .tc := ⟨.hbm, 106, rfl⟩
abbrev main_call2_v15 : Ref sig .tc := ⟨.hbm, 107, rfl⟩
abbrev main_v15 : Ref sig .tc := ⟨.hbm, 108, rfl⟩
abbrev main_v16 : Ref sig .tc := ⟨.hbm, 109, rfl⟩
abbrev main_cst_0 : Ref sig .tc := ⟨.hbm, 110, rfl⟩
abbrev main_v17 : Ref sig .tc := ⟨.hbm, 111, rfl⟩
abbrev main_v18 : Ref sig .tc := ⟨.hbm, 112, rfl⟩
abbrev main_v19 : Ref sig .tc := ⟨.hbm, 113, rfl⟩
abbrev main_v20 : Ref sig .tc := ⟨.hbm, 114, rfl⟩
abbrev main_v21 : Ref sig .tc := ⟨.hbm, 115, rfl⟩
abbrev main_v22 : Ref sig .tc := ⟨.hbm, 116, rfl⟩
abbrev main_v23 : Ref sig .tc := ⟨.hbm, 117, rfl⟩
abbrev main_v24 : Ref sig .tc := ⟨.hbm, 118, rfl⟩
abbrev main_cst_1 : Ref sig .tc := ⟨.hbm, 119, rfl⟩
abbrev main_v25 : Ref sig .tc := ⟨.hbm, 120, rfl⟩
abbrev main_v26 : Ref sig .tc := ⟨.hbm, 121, rfl⟩
abbrev main_v27 : Ref sig .tc := ⟨.hbm, 122, rfl⟩
abbrev main_v28 : Ref sig .tc := ⟨.hbm, 123, rfl⟩
abbrev main_v29 : Ref sig .tc := ⟨.hbm, 124, rfl⟩
abbrev main_v30 : Ref sig .tc := ⟨.hbm, 125, rfl⟩
abbrev main_v31 : Ref sig .tc := ⟨.hbm, 126, rfl⟩
abbrev main_v32 : Ref sig .tc := ⟨.hbm, 127, rfl⟩
abbrev main_call3_c : Ref sig .tc := ⟨.hbm, 128, rfl⟩
abbrev main_call3_v0 : Ref sig .tc := ⟨.hbm, 129, rfl⟩
abbrev main_call3_v1 : Ref sig .tc := ⟨.hbm, 130, rfl⟩
abbrev main_call3_c_0 : Ref sig .tc := ⟨.hbm, 131, rfl⟩
abbrev main_call3_v2 : Ref sig .tc := ⟨.hbm, 132, rfl⟩
abbrev main_call3_v3 : Ref sig .tc := ⟨.hbm, 133, rfl⟩
abbrev main_call3_v4 : Ref sig .tc := ⟨.hbm, 134, rfl⟩
abbrev main_call3_v5 : Ref sig .tc := ⟨.hbm, 135, rfl⟩
abbrev main_call3_c_1 : Ref sig .tc := ⟨.hbm, 136, rfl⟩
abbrev main_call3_c_2 : Ref sig .tc := ⟨.hbm, 137, rfl⟩
abbrev main_call3_v6 : Ref sig .tc := ⟨.hbm, 138, rfl⟩
abbrev main_call3_v7 : Ref sig .tc := ⟨.hbm, 139, rfl⟩
abbrev main_call3_v8 : Ref sig .tc := ⟨.hbm, 140, rfl⟩
abbrev main_call3_v9 : Ref sig .tc := ⟨.hbm, 141, rfl⟩
abbrev main_call3_v10 : Ref sig .tc := ⟨.hbm, 142, rfl⟩
abbrev main_call3_v11 : Ref sig .tc := ⟨.hbm, 143, rfl⟩
abbrev main_call3_c_3 : Ref sig .tc := ⟨.hbm, 144, rfl⟩
abbrev main_call3_v12 : Ref sig .tc := ⟨.hbm, 145, rfl⟩
abbrev main_call3_v13 : Ref sig .tc := ⟨.hbm, 146, rfl⟩
abbrev main_call3_v14 : Ref sig .tc := ⟨.hbm, 147, rfl⟩
abbrev main_call3_cst : Ref sig .tc := ⟨.hbm, 148, rfl⟩
abbrev main_call3_v15 : Ref sig .tc := ⟨.hbm, 149, rfl⟩
abbrev main_v33 : Ref sig .tc := ⟨.hbm, 150, rfl⟩
abbrev main_call4_c : Ref sig .tc := ⟨.hbm, 151, rfl⟩
abbrev main_call4_v0 : Ref sig .tc := ⟨.hbm, 152, rfl⟩
abbrev main_call4_v1 : Ref sig .tc := ⟨.hbm, 153, rfl⟩
abbrev main_call4_c_0 : Ref sig .tc := ⟨.hbm, 154, rfl⟩
abbrev main_call4_v2 : Ref sig .tc := ⟨.hbm, 155, rfl⟩
abbrev main_call4_v3 : Ref sig .tc := ⟨.hbm, 156, rfl⟩
abbrev main_call4_v4 : Ref sig .tc := ⟨.hbm, 157, rfl⟩
abbrev main_call4_v5 : Ref sig .tc := ⟨.hbm, 158, rfl⟩
abbrev main_call4_c_1 : Ref sig .tc := ⟨.hbm, 159, rfl⟩
abbrev main_call4_c_2 : Ref sig .tc := ⟨.hbm, 160, rfl⟩
abbrev main_call4_v6 : Ref sig .tc := ⟨.hbm, 161, rfl⟩
abbrev main_call4_v7 : Ref sig .tc := ⟨.hbm, 162, rfl⟩
abbrev main_call4_v8 : Ref sig .tc := ⟨.hbm, 163, rfl⟩
abbrev main_call4_v9 : Ref sig .tc := ⟨.hbm, 164, rfl⟩
abbrev main_call4_v10 : Ref sig .tc := ⟨.hbm, 165, rfl⟩
abbrev main_call4_v11 : Ref sig .tc := ⟨.hbm, 166, rfl⟩
abbrev main_call4_c_3 : Ref sig .tc := ⟨.hbm, 167, rfl⟩
abbrev main_call4_v12 : Ref sig .tc := ⟨.hbm, 168, rfl⟩
abbrev main_call4_v13 : Ref sig .tc := ⟨.hbm, 169, rfl⟩
abbrev main_call4_v14 : Ref sig .tc := ⟨.hbm, 170, rfl⟩
abbrev main_call4_cst : Ref sig .tc := ⟨.hbm, 171, rfl⟩
abbrev main_call4_v15 : Ref sig .tc := ⟨.hbm, 172, rfl⟩
abbrev main_v34 : Ref sig .tc := ⟨.hbm, 173, rfl⟩
abbrev main_call5_c : Ref sig .tc := ⟨.hbm, 174, rfl⟩
abbrev main_call5_v0 : Ref sig .tc := ⟨.hbm, 175, rfl⟩
abbrev main_call5_v1 : Ref sig .tc := ⟨.hbm, 176, rfl⟩
abbrev main_call5_c_0 : Ref sig .tc := ⟨.hbm, 177, rfl⟩
abbrev main_call5_v2 : Ref sig .tc := ⟨.hbm, 178, rfl⟩
abbrev main_call5_v3 : Ref sig .tc := ⟨.hbm, 179, rfl⟩
abbrev main_call5_v4 : Ref sig .tc := ⟨.hbm, 180, rfl⟩
abbrev main_call5_v5 : Ref sig .tc := ⟨.hbm, 181, rfl⟩
abbrev main_call5_c_1 : Ref sig .tc := ⟨.hbm, 182, rfl⟩
abbrev main_call5_c_2 : Ref sig .tc := ⟨.hbm, 183, rfl⟩
abbrev main_call5_v6 : Ref sig .tc := ⟨.hbm, 184, rfl⟩
abbrev main_call5_v7 : Ref sig .tc := ⟨.hbm, 185, rfl⟩
abbrev main_call5_v8 : Ref sig .tc := ⟨.hbm, 186, rfl⟩
abbrev main_call5_v9 : Ref sig .tc := ⟨.hbm, 187, rfl⟩
abbrev main_call5_v10 : Ref sig .tc := ⟨.hbm, 188, rfl⟩
abbrev main_call5_v11 : Ref sig .tc := ⟨.hbm, 189, rfl⟩
abbrev main_call5_c_3 : Ref sig .tc := ⟨.hbm, 190, rfl⟩
abbrev main_call5_v12 : Ref sig .tc := ⟨.hbm, 191, rfl⟩
abbrev main_call5_v13 : Ref sig .tc := ⟨.hbm, 192, rfl⟩
abbrev main_call5_v14 : Ref sig .tc := ⟨.hbm, 193, rfl⟩
abbrev main_call5_cst : Ref sig .tc := ⟨.hbm, 194, rfl⟩
abbrev main_call5_v15 : Ref sig .tc := ⟨.hbm, 195, rfl⟩
abbrev main_v35 : Ref sig .tc := ⟨.hbm, 196, rfl⟩
abbrev main_v36 : Ref sig .tc := ⟨.hbm, 197, rfl⟩
abbrev main_cst_2 : Ref sig .tc := ⟨.hbm, 198, rfl⟩
abbrev main_v37 : Ref sig .tc := ⟨.hbm, 199, rfl⟩
abbrev main_v38 : Ref sig .tc := ⟨.hbm, 200, rfl⟩
abbrev main_v39 : Ref sig .tc := ⟨.hbm, 201, rfl⟩
abbrev main_v40 : Ref sig .tc := ⟨.hbm, 202, rfl⟩
abbrev main_v41 : Ref sig .tc := ⟨.hbm, 203, rfl⟩
abbrev main_v42 : Ref sig .tc := ⟨.hbm, 204, rfl⟩
abbrev main_v43 : Ref sig .tc := ⟨.hbm, 205, rfl⟩
abbrev main_v44 : Ref sig .tc := ⟨.hbm, 206, rfl⟩
abbrev main_cst_3 : Ref sig .tc := ⟨.hbm, 207, rfl⟩
abbrev main_v45 : Ref sig .tc := ⟨.hbm, 208, rfl⟩
abbrev main_v46 : Ref sig .tc := ⟨.hbm, 209, rfl⟩
abbrev main_v47 : Ref sig .tc := ⟨.hbm, 210, rfl⟩
abbrev main_v48 : Ref sig .tc := ⟨.hbm, 211, rfl⟩
abbrev main_v49 : Ref sig .tc := ⟨.hbm, 212, rfl⟩
abbrev main_v50 : Ref sig .tc := ⟨.hbm, 213, rfl⟩
abbrev main_v51 : Ref sig .tc := ⟨.hbm, 214, rfl⟩
abbrev main_v52 : Ref sig .tc := ⟨.hbm, 215, rfl⟩
abbrev main_call6_c : Ref sig .tc := ⟨.hbm, 216, rfl⟩
abbrev main_call6_v0 : Ref sig .tc := ⟨.hbm, 217, rfl⟩
abbrev main_call6_v1 : Ref sig .tc := ⟨.hbm, 218, rfl⟩
abbrev main_call6_c_0 : Ref sig .tc := ⟨.hbm, 219, rfl⟩
abbrev main_call6_v2 : Ref sig .tc := ⟨.hbm, 220, rfl⟩
abbrev main_call6_v3 : Ref sig .tc := ⟨.hbm, 221, rfl⟩
abbrev main_call6_v4 : Ref sig .tc := ⟨.hbm, 222, rfl⟩
abbrev main_call6_v5 : Ref sig .tc := ⟨.hbm, 223, rfl⟩
abbrev main_call6_c_1 : Ref sig .tc := ⟨.hbm, 224, rfl⟩
abbrev main_call6_c_2 : Ref sig .tc := ⟨.hbm, 225, rfl⟩
abbrev main_call6_v6 : Ref sig .tc := ⟨.hbm, 226, rfl⟩
abbrev main_call6_v7 : Ref sig .tc := ⟨.hbm, 227, rfl⟩
abbrev main_call6_v8 : Ref sig .tc := ⟨.hbm, 228, rfl⟩
abbrev main_call6_v9 : Ref sig .tc := ⟨.hbm, 229, rfl⟩
abbrev main_call6_v10 : Ref sig .tc := ⟨.hbm, 230, rfl⟩
abbrev main_call6_v11 : Ref sig .tc := ⟨.hbm, 231, rfl⟩
abbrev main_call6_c_3 : Ref sig .tc := ⟨.hbm, 232, rfl⟩
abbrev main_call6_v12 : Ref sig .tc := ⟨.hbm, 233, rfl⟩
abbrev main_call6_v13 : Ref sig .tc := ⟨.hbm, 234, rfl⟩
abbrev main_call6_v14 : Ref sig .tc := ⟨.hbm, 235, rfl⟩
abbrev main_call6_cst : Ref sig .tc := ⟨.hbm, 236, rfl⟩
abbrev main_call6_v15 : Ref sig .tc := ⟨.hbm, 237, rfl⟩
abbrev main_v53 : Ref sig .tc := ⟨.hbm, 238, rfl⟩
abbrev main_call7_c : Ref sig .tc := ⟨.hbm, 239, rfl⟩
abbrev main_call7_v0 : Ref sig .tc := ⟨.hbm, 240, rfl⟩
abbrev main_call7_v1 : Ref sig .tc := ⟨.hbm, 241, rfl⟩
abbrev main_call7_c_0 : Ref sig .tc := ⟨.hbm, 242, rfl⟩
abbrev main_call7_v2 : Ref sig .tc := ⟨.hbm, 243, rfl⟩
abbrev main_call7_v3 : Ref sig .tc := ⟨.hbm, 244, rfl⟩
abbrev main_call7_v4 : Ref sig .tc := ⟨.hbm, 245, rfl⟩
abbrev main_call7_v5 : Ref sig .tc := ⟨.hbm, 246, rfl⟩
abbrev main_call7_c_1 : Ref sig .tc := ⟨.hbm, 247, rfl⟩
abbrev main_call7_c_2 : Ref sig .tc := ⟨.hbm, 248, rfl⟩
abbrev main_call7_v6 : Ref sig .tc := ⟨.hbm, 249, rfl⟩
abbrev main_call7_v7 : Ref sig .tc := ⟨.hbm, 250, rfl⟩
abbrev main_call7_v8 : Ref sig .tc := ⟨.hbm, 251, rfl⟩
abbrev main_call7_v9 : Ref sig .tc := ⟨.hbm, 252, rfl⟩
abbrev main_call7_v10 : Ref sig .tc := ⟨.hbm, 253, rfl⟩
abbrev main_call7_v11 : Ref sig .tc := ⟨.hbm, 254, rfl⟩
abbrev main_call7_c_3 : Ref sig .tc := ⟨.hbm, 255, rfl⟩
abbrev main_call7_v12 : Ref sig .tc := ⟨.hbm, 256, rfl⟩
abbrev main_call7_v13 : Ref sig .tc := ⟨.hbm, 257, rfl⟩
abbrev main_call7_v14 : Ref sig .tc := ⟨.hbm, 258, rfl⟩
abbrev main_call7_cst : Ref sig .tc := ⟨.hbm, 259, rfl⟩
abbrev main_call7_v15 : Ref sig .tc := ⟨.hbm, 260, rfl⟩
abbrev main_v54 : Ref sig .tc := ⟨.hbm, 261, rfl⟩
abbrev main_call8_c : Ref sig .tc := ⟨.hbm, 262, rfl⟩
abbrev main_call8_v0 : Ref sig .tc := ⟨.hbm, 263, rfl⟩
abbrev main_call8_v1 : Ref sig .tc := ⟨.hbm, 264, rfl⟩
abbrev main_call8_c_0 : Ref sig .tc := ⟨.hbm, 265, rfl⟩
abbrev main_call8_v2 : Ref sig .tc := ⟨.hbm, 266, rfl⟩
abbrev main_call8_v3 : Ref sig .tc := ⟨.hbm, 267, rfl⟩
abbrev main_call8_v4 : Ref sig .tc := ⟨.hbm, 268, rfl⟩
abbrev main_call8_v5 : Ref sig .tc := ⟨.hbm, 269, rfl⟩
abbrev main_call8_c_1 : Ref sig .tc := ⟨.hbm, 270, rfl⟩
abbrev main_call8_c_2 : Ref sig .tc := ⟨.hbm, 271, rfl⟩
abbrev main_call8_v6 : Ref sig .tc := ⟨.hbm, 272, rfl⟩
abbrev main_call8_v7 : Ref sig .tc := ⟨.hbm, 273, rfl⟩
abbrev main_call8_v8 : Ref sig .tc := ⟨.hbm, 274, rfl⟩
abbrev main_call8_v9 : Ref sig .tc := ⟨.hbm, 275, rfl⟩
abbrev main_call8_v10 : Ref sig .tc := ⟨.hbm, 276, rfl⟩
abbrev main_call8_v11 : Ref sig .tc := ⟨.hbm, 277, rfl⟩
abbrev main_call8_c_3 : Ref sig .tc := ⟨.hbm, 278, rfl⟩
abbrev main_call8_v12 : Ref sig .tc := ⟨.hbm, 279, rfl⟩
abbrev main_call8_v13 : Ref sig .tc := ⟨.hbm, 280, rfl⟩
abbrev main_call8_v14 : Ref sig .tc := ⟨.hbm, 281, rfl⟩
abbrev main_call8_cst : Ref sig .tc := ⟨.hbm, 282, rfl⟩
abbrev main_call8_v15 : Ref sig .tc := ⟨.hbm, 283, rfl⟩
abbrev main_v55 : Ref sig .tc := ⟨.hbm, 284, rfl⟩
abbrev main_v56 : Ref sig .tc := ⟨.hbm, 285, rfl⟩
abbrev main_cst_4 : Ref sig .tc := ⟨.hbm, 286, rfl⟩
abbrev main_v57 : Ref sig .tc := ⟨.hbm, 287, rfl⟩
abbrev main_v58 : Ref sig .tc := ⟨.hbm, 288, rfl⟩
abbrev main_v59 : Ref sig .tc := ⟨.hbm, 289, rfl⟩
abbrev main_v60 : Ref sig .tc := ⟨.hbm, 290, rfl⟩
abbrev main_v61 : Ref sig .tc := ⟨.hbm, 291, rfl⟩
abbrev main_v62 : Ref sig .tc := ⟨.hbm, 292, rfl⟩
abbrev main_v63 : Ref sig .tc := ⟨.hbm, 293, rfl⟩
abbrev main_cst_5 : Ref sig .tc := ⟨.hbm, 294, rfl⟩
abbrev main_v64 : Ref sig .tc := ⟨.hbm, 295, rfl⟩
abbrev main_cst_6 : Ref sig .tc := ⟨.hbm, 296, rfl⟩
abbrev main_v65 : Ref sig .tc := ⟨.hbm, 297, rfl⟩
abbrev main_v66 : Ref sig .tc := ⟨.hbm, 298, rfl⟩
abbrev main_v67 : Ref sig .tc := ⟨.hbm, 299, rfl⟩
abbrev main_v68 : Ref sig .tc := ⟨.hbm, 300, rfl⟩
abbrev main_v69 : Ref sig .tc := ⟨.hbm, 301, rfl⟩
abbrev main_v70 : Ref sig .tc := ⟨.hbm, 302, rfl⟩
abbrev main_cst_7 : Ref sig .tc := ⟨.hbm, 303, rfl⟩
abbrev main_v71 : Ref sig .tc := ⟨.hbm, 304, rfl⟩
abbrev main_v72 : Ref sig .tc := ⟨.hbm, 305, rfl⟩
abbrev main_v73 : Ref sig .tc := ⟨.hbm, 306, rfl⟩
abbrev main_v74 : Ref sig .tc := ⟨.hbm, 307, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg2_1 : Ref sig .tc := ⟨.vmem, 25, rfl⟩
abbrev cc3_stg3_0 : Ref sig .tc := ⟨.vmem, 26, rfl⟩
abbrev cc3_stg3_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg3_0 : Ref sig .tc := ⟨.vmem, 32, rfl⟩
abbrev cc4_stg3_1 : Ref sig .tc := ⟨.vmem, 33, rfl⟩
abbrev cc5_stg0_0 : Ref sig .tc := ⟨.vmem, 34, rfl⟩
abbrev cc5_stg0_1 : Ref sig .tc := ⟨.vmem, 35, rfl⟩
abbrev cc5_stg1_0 : Ref sig .tc := ⟨.vmem, 36, rfl⟩
abbrev cc5_stg1_1 : Ref sig .tc := ⟨.vmem, 37, rfl⟩
abbrev cc5_stg2_0 : Ref sig .tc := ⟨.vmem, 38, rfl⟩
abbrev cc5_stg2_1 : Ref sig .tc := ⟨.vmem, 39, rfl⟩
abbrev cc5_stg3_0 : Ref sig .tc := ⟨.vmem, 40, rfl⟩
abbrev cc5_stg3_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem3_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem2_1 : DmaSem sig := 25
abbrev cc3_sem3_0 : DmaSem sig := 26
abbrev cc3_sem3_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem3_0 : DmaSem sig := 32
abbrev cc4_sem3_1 : DmaSem sig := 33
abbrev cc5_sem0_0 : DmaSem sig := 34
abbrev cc5_sem0_1 : DmaSem sig := 35
abbrev cc5_sem1_0 : DmaSem sig := 36
abbrev cc5_sem1_1 : DmaSem sig := 37
abbrev cc5_sem2_0 : DmaSem sig := 38
abbrev cc5_sem2_1 : DmaSem sig := 39
abbrev cc5_sem3_0 : DmaSem sig := 40
abbrev cc5_sem3_1 : DmaSem sig := 41

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1000x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![160], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x512 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1000x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![160], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S2000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S1000x256 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![160], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S2000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S2000x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  concatenates_S256x256_S256x256_S256x256_S256x256_S256x1024_d1 : Shape.Concatenates [S256x256, S256x256, S256x256, S256x256] S256x1024 1
  bcast_S_S256 : S_.BroadcastsInDim S256 (![] : Fin 0 → Fin S256.rank)
  concatenates_S256_S256_S256_S256_S1024_d0 : Shape.Concatenates [S256, S256, S256, S256] S1024 0
  shapeCasts_S1024_S1x1024 : S1024.ShapeCasts S1x1024
  inb_S1000x256_S1000x256_0_0 : ∀ a, (![0, 0] : Fin 2 → Nat) a + S1000x256.size a ≤ S1000x256.size a
  h_S1000x256 : 0 < S1000x256.numel
  bitsLt_bf16_f32 : FTy.bits .bf16 < FTy.bits .f32
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1000x1024 : S1x1024.Broadcasts S1000x1024
  inb_S1000x1024_S1000x1024_0_0 : ∀ a, (![0, 0] : Fin 2 → Nat) a + S1000x1024.size a ≤ S1000x1024.size a
  h_S1000x1024 : 0 < S1000x1024.numel
  slices_S20000x1024_S20000x256_0_0 : S20000x1024.Slices ![0, 0] S20000x256
  slices_S20000x1024_S20000x256_0_256 : S20000x1024.Slices ![0, 256] S20000x256
  slices_S20000x1024_S20000x256_0_512 : S20000x1024.Slices ![0, 512] S20000x256
  slices_S20000x1024_S20000x256_0_768 : S20000x1024.Slices ![0, 768] S20000x256
  bcast_S_S320000 : S_.BroadcastsInDim S320000 (![] : Fin 0 → Fin S320000.rank)
  bcast_S320000_S320000x1_0 : S320000.BroadcastsInDim S320000x1 (![0] : Fin 1 → Fin S320000x1.rank)
  bcast_S_S320000x1 : S_.BroadcastsInDim S320000x1 (![] : Fin 0 → Fin S320000x1.rank)
  bcast_S1_S1x1_1 : S1.BroadcastsInDim S1x1 (![1] : Fin 1 → Fin S1x1.rank)
  bcast_S1x1_S320000x1_0_1 : S1x1.BroadcastsInDim S320000x1 (![0, 1] : Fin 2 → Fin S320000x1.rank)
  reducesTo_S320000x1_S320000_d1 : S320000x1.ReducesTo [1] S320000
  h_S_ : 0 < S_.numel
  bcast_S320000_S320000x256_0 : S320000.BroadcastsInDim S320000x256 (![0] : Fin 1 → Fin S320000x256.rank)
  bcast_S_S320000x256 : S_.BroadcastsInDim S320000x256 (![] : Fin 0 → Fin S320000x256.rank)
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  bcast_S_S20000x256 : S_.BroadcastsInDim S20000x256 (![] : Fin 0 → Fin S20000x256.rank)
  bcast_S256_S1x256_1 : S256.BroadcastsInDim S1x256 (![1] : Fin 1 → Fin S1x256.rank)
  bcast_S1x256_S20000x256_0_1 : S1x256.BroadcastsInDim S20000x256 (![0, 1] : Fin 2 → Fin S20000x256.rank)
  concatenates_S256x128_S256x128_S256x128_S256x128_S256x512_d1 : Shape.Concatenates [S256x128, S256x128, S256x128, S256x128] S256x512 1
  bcast_S_S128 : S_.BroadcastsInDim S128 (![] : Fin 0 → Fin S128.rank)
  concatenates_S128_S128_S128_S128_S512_d0 : Shape.Concatenates [S128, S128, S128, S128] S512 0
  shapeCasts_S512_S1x512 : S512.ShapeCasts S1x512
  shapeCasts_S1000x256_S1000x256 : S1000x256.ShapeCasts S1000x256
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1000x512 : S1x512.Broadcasts S1000x512
  inb_S1000x512_S1000x512_0_0 : ∀ a, (![0, 0] : Fin 2 → Nat) a + S1000x512.size a ≤ S1000x512.size a
  h_S1000x512 : 0 < S1000x512.numel
  slices_S20000x512_S20000x128_0_0 : S20000x512.Slices ![0, 0] S20000x128
  slices_S20000x512_S20000x128_0_128 : S20000x512.Slices ![0, 128] S20000x128
  slices_S20000x512_S20000x128_0_256 : S20000x512.Slices ![0, 256] S20000x128
  slices_S20000x512_S20000x128_0_384 : S20000x512.Slices ![0, 384] S20000x128
  bcast_S320000_S320000x128_0 : S320000.BroadcastsInDim S320000x128 (![0] : Fin 1 → Fin S320000x128.rank)
  bcast_S_S320000x128 : S_.BroadcastsInDim S320000x128 (![] : Fin 0 → Fin S320000x128.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bcast_S_S20000x128 : S_.BroadcastsInDim S20000x128 (![] : Fin 0 → Fin S20000x128.rank)
  bcast_S128_S1x128_1 : S128.BroadcastsInDim S1x128 (![1] : Fin 1 → Fin S1x128.rank)
  bcast_S1x128_S20000x128_0_1 : S1x128.BroadcastsInDim S20000x128 (![0, 1] : Fin 2 → Fin S20000x128.rank)
  concatenates_S128x64_S128x64_S128x64_S128x64_S128x256_d1 : Shape.Concatenates [S128x64, S128x64, S128x64, S128x64] S128x256 1
  bcast_S_S64 : S_.BroadcastsInDim S64 (![] : Fin 0 → Fin S64.rank)
  concatenates_S64_S64_S64_S64_S256_d0 : Shape.Concatenates [S64, S64, S64, S64] S256 0
  shapeCasts_S256_S1x256 : S256.ShapeCasts S1x256
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1000x256 : S1x256.Broadcasts S1000x256
  slices_S20000x256_S20000x64_0_0 : S20000x256.Slices ![0, 0] S20000x64
  slices_S20000x256_S20000x64_0_64 : S20000x256.Slices ![0, 64] S20000x64
  slices_S20000x256_S20000x64_0_128 : S20000x256.Slices ![0, 128] S20000x64
  slices_S20000x256_S20000x64_0_192 : S20000x256.Slices ![0, 192] S20000x64
  bcast_S320000_S320000x64_0 : S320000.BroadcastsInDim S320000x64 (![0] : Fin 1 → Fin S320000x64.rank)
  bcast_S_S320000x64 : S_.BroadcastsInDim S320000x64 (![] : Fin 0 → Fin S320000x64.rank)
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  bcast_S_S20000x64 : S_.BroadcastsInDim S20000x64 (![] : Fin 0 → Fin S20000x64.rank)
  bcast_S64_S1x64_1 : S64.BroadcastsInDim S1x64 (![1] : Fin 1 → Fin S1x64.rank)
  bcast_S1x64_S20000x64_0_1 : S1x64.BroadcastsInDim S20000x64 (![0, 1] : Fin 2 → Fin S20000x64.rank)
  reducesTo_S20000x64_S20000_d1 : S20000x64.ReducesTo [1] S20000
  bcast_S_S20000 : S_.BroadcastsInDim S20000 (![] : Fin 0 → Fin S20000.rank)
  bcast_S20000_S20000x1_0 : S20000.BroadcastsInDim S20000x1 (![0] : Fin 1 → Fin S20000x1.rank)
  bcast_S20000x1_S20000x64_0_1 : S20000x1.BroadcastsInDim S20000x64 (![0, 1] : Fin 2 → Fin S20000x64.rank)
  dot_S1000x256_S256x1024_S1000x1024_1_0_0_1_n_n_wf : DotDims.WF S1000x256 S256x1024 S1000x1024 [1] [0] [0] [1] [] []
  gather_S20000x256_S320000x1_S320000x256_1_0_n_n_0_1_1256_wf : GatherDims.WF S20000x256 S320000x1 S320000x256 [1] [0] [] [0] [] 1 ![1, 256]
  scatter_S20000x256_S320000x1_S320000x256_1_0_0_1_wf : ScatterDims.WF S20000x256 S320000x1 S320000x256 [1] [0] [0] 1
  dot_S1000x256_S256x512_S1000x512_1_0_0_1_n_n_wf : DotDims.WF S1000x256 S256x512 S1000x512 [1] [0] [0] [1] [] []
  gather_S20000x128_S320000x1_S320000x128_1_0_n_n_0_1_1128_wf : GatherDims.WF S20000x128 S320000x1 S320000x128 [1] [0] [] [0] [] 1 ![1, 128]
  scatter_S20000x128_S320000x1_S320000x128_1_0_0_1_wf : ScatterDims.WF S20000x128 S320000x1 S320000x128 [1] [0] [0] 1
  dot_S1000x128_S128x256_S1000x256_1_0_0_1_n_n_wf : DotDims.WF S1000x128 S128x256 S1000x256 [1] [0] [0] [1] [] []
  gather_S20000x64_S320000x1_S320000x64_1_0_n_n_0_1_164_wf : GatherDims.WF S20000x64 S320000x1 S320000x64 [1] [0] [] [0] [] 1 ![1, 64]
  scatter_S20000x64_S320000x1_S320000x64_1_0_0_1_wf : ScatterDims.WF S20000x64 S320000x1 S320000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x256.size a ≤ S20000x256.size a
  hwx0_0 : ∀ i : grid0.Coords, EltTy.bits .f32 = 32 ∨ (Rect.block (s := S20000x256) S1000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S256x1024.size a
  hwx0_1 : ∀ i : grid0.Coords, EltTy.bits .f32 = 32 ∨ (Rect.block (s := S256x1024) S256x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x1024.size a ≤ S20000x1024.size a
  hwx0_3 : ∀ i : grid0.Coords, EltTy.bits .f32 = 32 ∨ (Rect.block (s := S20000x1024) S1000x1024.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S320000x256.size a
  hwx1_0 : ∀ i : grid1.Coords, EltTy.bits .f32 = 32 ∨ (Rect.block (s := S320000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S320000x256.size a
  hwx1_1 : ∀ i : grid1.Coords, EltTy.bits .f32 = 32 ∨ (Rect.block (s := S320000x256) S2000x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x256.size a ≤ S320000x256.size a
  hwx1_2 : ∀ i : grid1.Coords, EltTy.bits .f32 = 32 ∨ (Rect.block (s := S320000x256) S2000x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x256.size a ≤ S320000x256.size a
  hwx1_3 : ∀ i : grid1.Coords, EltTy.bits .f32 = 32 ∨ (Rect.block (s := S320000x256) S2000x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x256.size a ≤ S20000x256.size a
  hwx2_0 : ∀ i : grid2.Coords, EltTy.bits .f32 = 32 ∨ (Rect.block (s := S20000x256) S1000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x512.size a ≤ S256x512.size a
  hwx2_1 : ∀ i : grid2.Coords, EltTy.bits .f32 = 32 ∨ (Rect.block (s := S256x512) S256x512.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x512.size a ≤ S1x512.size a
  hwx2_2 : ∀ i : grid2.Coords, EltTy.bits .f32 = 32 ∨ (Rect.block (s := S1x512) S1x512.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1000x512.size a ≤ S20000x512.size a
  hwx2_3 : ∀ i : grid2.Coords, EltTy.bits .f32 = 32 ∨ (Rect.block (s := S20000x512) S1000x512.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S320000x128.size a
  hwx3_0 : ∀ i : grid3.Coords, EltTy.bits .f32 = 32 ∨ (Rect.block (s := S320000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S320000x128.size a
  hwx3_1 : ∀ i : grid3.Coords, EltTy.bits .f32 = 32 ∨ (Rect.block (s := S320000x128) S2000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x128.size a ≤ S320000x128.size a
  hwx3_2 : ∀ i : grid3.Coords, EltTy.bits .f32 = 32 ∨ (Rect.block (s := S320000x128) S2000x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x128.size a ≤ S320000x128.size a
  hwx3_3 : ∀ i : grid3.Coords, EltTy.bits .f32 = 32 ∨ (Rect.block (s := S320000x128) S2000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1000x128.size a ≤ S20000x128.size a
  hwx4_0 : ∀ i : grid4.Coords, EltTy.bits .f32 = 32 ∨ (Rect.block (s := S20000x128) S1000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x256.size a ≤ S128x256.size a
  hwx4_1 : ∀ i : grid4.Coords, EltTy.bits .f32 = 32 ∨ (Rect.block (s := S128x256) S128x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x256.size a ≤ S1x256.size a
  hwx4_2 : ∀ i : grid4.Coords, EltTy.bits .f32 = 32 ∨ (Rect.block (s := S1x256) S1x256.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1000x256.size a ≤ S20000x256.size a
  hwx4_3 : ∀ i : grid4.Coords, EltTy.bits .f32 = 32 ∨ (Rect.block (s := S20000x256) S1000x256.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x64.size a ≤ S320000x64.size a
  hwx5_0 : ∀ i : grid5.Coords, EltTy.bits .f32 = 32 ∨ (Rect.block (s := S320000x64) S2000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x64.size a ≤ S320000x64.size a
  hwx5_1 : ∀ i : grid5.Coords, EltTy.bits .f32 = 32 ∨ (Rect.block (s := S320000x64) S2000x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x64.size a ≤ S320000x64.size a
  hwx5_2 : ∀ i : grid5.Coords, EltTy.bits .f32 = 32 ∨ (Rect.block (s := S320000x64) S2000x64.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2000x64.size a ≤ S320000x64.size a
  hwx5_3 : ∀ i : grid5.Coords, EltTy.bits .f32 = 32 ∨ (Rect.block (s := S320000x64) S2000x64.size (cc5_transform_3 i) (hinb5_3 i)).WholeWords (EltTy.packing .f32)

variable [Facts₀]

def dot_S1000x256_S256x1024_S1000x1024_1_0_0_1_n_n : DotDims S1000x256 S256x1024 S1000x1024 where
  lhsContracting := [1]
  rhsContracting := [0]
  lhsNonContracting := [0]
  rhsNonContracting := [1]
  lhsBatch := []
  rhsBatch := []
  wf := dot_S1000x256_S256x1024_S1000x1024_1_0_0_1_n_n_wf
def gather_S20000x256_S320000x1_S320000x256_1_0_n_n_0_1_1256 : GatherDims S20000x256 S320000x1 S320000x256 where
  offsetDims := [1]
  collapsedSliceDims := [0]
  operandBatchingDims := []
  startIndicesBatchingDims := []
  startIndexMap := [0]
  indexVectorDim := 1
  sliceSizes := ![1, 256]
  wf := gather_S20000x256_S320000x1_S320000x256_1_0_n_n_0_1_1256_wf
def scatter_S20000x256_S320000x1_S320000x256_1_0_0_1 : ScatterDims S20000x256 S320000x1 S320000x256 where
  updateWindowDims := [1]
  insertedWindowDims := [0]
  scatterDimsToOperandDims := [0]
  indexVectorDim := 1
  wf := scatter_S20000x256_S320000x1_S320000x256_1_0_0_1_wf
def dot_S1000x256_S256x512_S1000x512_1_0_0_1_n_n : DotDims S1000x256 S256x512 S1000x512 where
  lhsContracting := [1]
  rhsContracting := [0]
  lhsNonContracting := [0]
  rhsNonContracting := [1]
  lhsBatch := []
  rhsBatch := []
  wf := dot_S1000x256_S256x512_S1000x512_1_0_0_1_n_n_wf
def gather_S20000x128_S320000x1_S320000x128_1_0_n_n_0_1_1128 : GatherDims S20000x128 S320000x1 S320000x128 where
  offsetDims := [1]
  collapsedSliceDims := [0]
  operandBatchingDims := []
  startIndicesBatchingDims := []
  startIndexMap := [0]
  indexVectorDim := 1
  sliceSizes := ![1, 128]
  wf := gather_S20000x128_S320000x1_S320000x128_1_0_n_n_0_1_1128_wf
def scatter_S20000x128_S320000x1_S320000x128_1_0_0_1 : ScatterDims S20000x128 S320000x1 S320000x128 where
  updateWindowDims := [1]
  insertedWindowDims := [0]
  scatterDimsToOperandDims := [0]
  indexVectorDim := 1
  wf := scatter_S20000x128_S320000x1_S320000x128_1_0_0_1_wf
def dot_S1000x128_S128x256_S1000x256_1_0_0_1_n_n : DotDims S1000x128 S128x256 S1000x256 where
  lhsContracting := [1]
  rhsContracting := [0]
  lhsNonContracting := [0]
  rhsNonContracting := [1]
  lhsBatch := []
  rhsBatch := []
  wf := dot_S1000x128_S128x256_S1000x256_1_0_0_1_n_n_wf
def gather_S20000x64_S320000x1_S320000x64_1_0_n_n_0_1_164 : GatherDims S20000x64 S320000x1 S320000x64 where
  offsetDims := [1]
  collapsedSliceDims := [0]
  operandBatchingDims := []
  startIndicesBatchingDims := []
  startIndexMap := [0]
  indexVectorDim := 1
  sliceSizes := ![1, 64]
  wf := gather_S20000x64_S320000x1_S320000x64_1_0_n_n_0_1_164_wf
def scatter_S20000x64_S320000x1_S320000x64_1_0_0_1 : ScatterDims S20000x64 S320000x1 S320000x64 where
  updateWindowDims := [1]
  insertedWindowDims := [0]
  scatterDimsToOperandDims := [0]
  indexVectorDim := 1
  wf := scatter_S20000x64_S320000x1_S320000x64_1_0_0_1_wf

abbrev win0_0 : Pipeline.Window sig grid0 :=
  Pipeline.Window.ofSpec (Memref.whole main_arg0) S1000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S256x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1000x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v13) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v15) S2000x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v16) S2000x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v23) S1000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v24) S256x512.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v27) S1x512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v28) S1000x512.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v33) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v34) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v35) S2000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v36) S2000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v43) S1000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v44) S128x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v47) S1x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v48) S1000x256.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v53) S2000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v54) S2000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v55) S2000x64.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v56) S2000x64.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S20000x256 : Shape := ⟨2, ![20000, 256]⟩
abbrev S2x320000 : Shape := ⟨2, ![2, 320000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S1x320000 : Shape := ⟨2, ![1, 320000]⟩
abbrev S320000 : Shape := ⟨1, ![320000]⟩
abbrev S1x256 : Shape := ⟨2, ![1, 256]⟩
abbrev S_ : Shape := ⟨0, ![]⟩
abbrev S320000x1 : Shape := ⟨2, ![320000, 1]⟩
abbrev S320000x256 : Shape := ⟨2, ![320000, 256]⟩
abbrev S20000x128 : Shape := ⟨2, ![20000, 128]⟩
abbrev S1x128 : Shape := ⟨2, ![1, 128]⟩
abbrev S320000x128 : Shape := ⟨2, ![320000, 128]⟩
abbrev S20000x64 : Shape := ⟨2, ![20000, 64]⟩
abbrev S1x64 : Shape := ⟨2, ![1, 64]⟩
abbrev S320000x64 : Shape := ⟨2, ![320000, 64]⟩
abbrev S20000 : Shape := ⟨1, ![20000]⟩
abbrev S20000x1 : Shape := ⟨2, ![20000, 1]⟩

abbrev nBuf : Space → Nat
  | .hbm => 218
  | .vmem => 0
  | .smem => 0
  | _ => 0

abbrev hbmTy0_0 (i : Nat) : BufTy := match i % 128 with
  | 0 => ⟨S20000x256, .f32⟩
  | 1 => ⟨S2x320000, .i32⟩
  | 2 => ⟨S256x256, .f32⟩
  | 3 => ⟨S256, .f32⟩
  | 4 => ⟨S256x256, .f32⟩
  | 5 => ⟨S256, .f32⟩
  | 6 => ⟨S256x256, .f32⟩
  | 7 => ⟨S256, .f32⟩
  | 8 => ⟨S256x128, .f32⟩
  | 9 => ⟨S128, .f32⟩
  | 10 => ⟨S256x128, .f32⟩
  | 11 => ⟨S128, .f32⟩
  | 12 => ⟨S256x128, .f32⟩
  | 13 => ⟨S128, .f32⟩
  | 14 => ⟨S128x64, .f32⟩
  | 15 => ⟨S64, .f32⟩
  | 16 => ⟨S128x64, .f32⟩
  | 17 => ⟨S64, .f32⟩
  | 18 => ⟨S128x64, .f32⟩
  | 19 => ⟨S64, .f32⟩
  | 20 => ⟨S256x256, .f32⟩
  | 21 => ⟨S256, .f32⟩
  | 22 => ⟨S256x128, .f32⟩
  | 23 => ⟨S128, .f32⟩
  | 24 => ⟨S128x64, .f32⟩
  | 25 => ⟨S64, .f32⟩
  | 26 => ⟨S1x320000, .i32⟩
  | 27 => ⟨S320000, .i32⟩
  | 28 => ⟨S1x320000, .i32⟩
  | 29 => ⟨S320000, .i32⟩
  | 30 => ⟨S20000x256, .f32⟩
  | 31 => ⟨S1x256, .f32⟩
  | 32 => ⟨S20000x256, .f32⟩
  | 33 => ⟨S20000x256, .f32⟩
  | 34 => ⟨S20000x256, .f32⟩
  | 35 => ⟨S1x256, .f32⟩
  | 36 => ⟨S20000x256, .f32⟩
  | 37 => ⟨S20000x256, .f32⟩
  | 38 => ⟨S20000x256, .f32⟩
  | 39 => ⟨S1x256, .f32⟩
  | 40 => ⟨S20000x256, .f32⟩
  | 41 => ⟨S20000x256, .f32⟩
  | 42 => ⟨S_, .i32⟩
  | 43 => ⟨S320000, .i32⟩
  | 44 => ⟨S320000, .i1⟩
  | 45 => ⟨S_, .i32⟩
  | 46 => ⟨S320000, .i32⟩
  | 47 => ⟨S320000, .i32⟩
  | 48 => ⟨S320000, .i32⟩
  | 49 => ⟨S320000x1, .i32⟩
  | 50 => ⟨S320000x256, .f32⟩
  | 51 => ⟨S_, .i32⟩
  | 52 => ⟨S320000, .i32⟩
  | 53 => ⟨S320000, .i1⟩
  | 54 => ⟨S_, .i32⟩
  | 55 => ⟨S320000, .i32⟩
  | 56 => ⟨S320000, .i32⟩
  | 57 => ⟨S320000, .i32⟩
  | 58 => ⟨S320000x1, .i32⟩
  | 59 => ⟨S320000x256, .f32⟩
  | 60 => ⟨S320000x256, .f32⟩
  | 61 => ⟨S320000x256, .f32⟩
  | 62 => ⟨S320000x256, .f32⟩
  | 63 => ⟨S_, .f32⟩
  | 64 => ⟨S320000x256, .f32⟩
  | 65 => ⟨S320000x256, .f32⟩
  | 66 => ⟨S_, .f32⟩
  | 67 => ⟨S320000x256, .f32⟩
  | 68 => ⟨S320000x256, .f32⟩
  | 69 => ⟨S_, .i32⟩
  | 70 => ⟨S320000, .i32⟩
  | 71 => ⟨S320000, .i1⟩
  | 72 => ⟨S_, .i32⟩
  | 73 => ⟨S320000, .i32⟩
  | 74 => ⟨S320000, .i32⟩
  | 75 => ⟨S320000, .i32⟩
  | 76 => ⟨S320000x1, .i32⟩
  | 77 => ⟨S320000x256, .f32⟩
  | 78 => ⟨S320000x256, .f32⟩
  | 79 => ⟨S_, .f32⟩
  | 80 => ⟨S20000x256, .f32⟩
  | 81 => ⟨S320000x1, .i32⟩
  | 82 => ⟨S20000x256, .f32⟩
  | 83 => ⟨S20000x256, .f32⟩
  | 84 => ⟨S20000x256, .f32⟩
  | 85 => ⟨S1x256, .f32⟩
  | 86 => ⟨S20000x256, .f32⟩
  | 87 => ⟨S20000x256, .f32⟩
  | 88 => ⟨S20000x128, .f32⟩
  | 89 => ⟨S1x128, .f32⟩
  | 90 => ⟨S20000x128, .f32⟩
  | 91 => ⟨S20000x128, .f32⟩
  | 92 => ⟨S20000x128, .f32⟩
  | 93 => ⟨S1x128, .f32⟩
  | 94 => ⟨S20000x128, .f32⟩
  | 95 => ⟨S20000x128, .f32⟩
  | 96 => ⟨S20000x128, .f32⟩
  | 97 => ⟨S1x128, .f32⟩
  | 98 => ⟨S20000x128, .f32⟩
  | 99 => ⟨S20000x128, .f32⟩
  | 100 => ⟨S_, .i32⟩
  | 101 => ⟨S320000, .i32⟩
  | 102 => ⟨S320000, .i1⟩
  | 103 => ⟨S_, .i32⟩
  | 104 => ⟨S320000, .i32⟩
  | 105 => ⟨S320000, .i32⟩
  | 106 => ⟨S320000, .i32⟩
  | 107 => ⟨S320000x1, .i32⟩
  | 108 => ⟨S320000x128, .f32⟩
  | 109 => ⟨S_, .i32⟩
  | 110 => ⟨S320000, .i32⟩
  | 111 => ⟨S320000, .i1⟩
  | 112 => ⟨S_, .i32⟩
  | 113 => ⟨S320000, .i32⟩
  | 114 => ⟨S320000, .i32⟩
  | 115 => ⟨S320000, .i32⟩
  | 116 => ⟨S320000x1, .i32⟩
  | 117 => ⟨S320000x128, .f32⟩
  | 118 => ⟨S320000x128, .f32⟩
  | 119 => ⟨S320000x128, .f32⟩
  | 120 => ⟨S320000x128, .f32⟩
  | 121 => ⟨S_, .f32⟩
  | 122 => ⟨S320000x128, .f32⟩
  | 123 => ⟨S320000x128, .f32⟩
  | 124 => ⟨S_, .f32⟩
  | 125 => ⟨S320000x128, .f32⟩
  | 126 => ⟨S320000x128, .f32⟩
  | 127 => ⟨S_, .i32⟩
  | _ => ⟨S20000x256, .f32⟩

abbrev hbmTy0_1 (i : Nat) : BufTy := match i % 128 with
  | 0 => ⟨S320000, .i32⟩
  | 1 => ⟨S320000, .i1⟩
  | 2 => ⟨S_, .i32⟩
  | 3 => ⟨S320000, .i32⟩
  | 4 => ⟨S320000, .i32⟩
  | 5 => ⟨S320000, .i32⟩
  | 6 => ⟨S320000x1, .i32⟩
  | 7 => ⟨S320000x128, .f32⟩
  | 8 => ⟨S320000x128, .f32⟩
  | 9 => ⟨S_, .f32⟩
  | 10 => ⟨S20000x128, .f32⟩
  | 11 => ⟨S320000x1, .i32⟩
  | 12 => ⟨S20000x128, .f32⟩
  | 13 => ⟨S20000x128, .f32⟩
  | 14 => ⟨S20000x128, .f32⟩
  | 15 => ⟨S1x128, .f32⟩
  | 16 => ⟨S20000x128, .f32⟩
  | 17 => ⟨S20000x128, .f32⟩
  | 18 => ⟨S20000x64, .f32⟩
  | 19 => ⟨S1x64, .f32⟩
  | 20 => ⟨S20000x64, .f32⟩
  | 21 => ⟨S20000x64, .f32⟩
  | 22 => ⟨S20000x64, .f32⟩
  | 23 => ⟨S1x64, .f32⟩
  | 24 => ⟨S20000x64, .f32⟩
  | 25 => ⟨S20000x64, .f32⟩
  | 26 => ⟨S20000x64, .f32⟩
  | 27 => ⟨S1x64, .f32⟩
  | 28 => ⟨S20000x64, .f32⟩
  | 29 => ⟨S20000x64, .f32⟩
  | 30 => ⟨S_, .i32⟩
  | 31 => ⟨S320000, .i32⟩
  | 32 => ⟨S320000, .i1⟩
  | 33 => ⟨S_, .i32⟩
  | 34 => ⟨S320000, .i32⟩
  | 35 => ⟨S320000, .i32⟩
  | 36 => ⟨S320000, .i32⟩
  | 37 => ⟨S320000x1, .i32⟩
  | 38 => ⟨S320000x64, .f32⟩
  | 39 => ⟨S_, .i32⟩
  | 40 => ⟨S320000, .i32⟩
  | 41 => ⟨S320000, .i1⟩
  | 42 => ⟨S_, .i32⟩
  | 43 => ⟨S320000, .i32⟩
  | 44 => ⟨S320000, .i32⟩
  | 45 => ⟨S320000, .i32⟩
  | 46 => ⟨S320000x1, .i32⟩
  | 47 => ⟨S320000x64, .f32⟩
  | 48 => ⟨S320000x64, .f32⟩
  | 49 => ⟨S320000x64, .f32⟩
  | 50 => ⟨S320000x64, .f32⟩
  | 51 => ⟨S_, .f32⟩
  | 52 => ⟨S320000x64, .f32⟩
  | 53 => ⟨S320000x64, .f32⟩
  | 54 => ⟨S_, .f32⟩
  | 55 => ⟨S320000x64, .f32⟩
  | 56 => ⟨S320000x64, .f32⟩
  | 57 => ⟨S_, .i32⟩
  | 58 => ⟨S320000, .i32⟩
  | 59 => ⟨S320000, .i1⟩
  | 60 => ⟨S_, .i32⟩
  | 61 => ⟨S320000, .i32⟩
  | 62 => ⟨S320000, .i32⟩
  | 63 => ⟨S320000, .i32⟩
  | 64 => ⟨S320000x1, .i32⟩
  | 65 => ⟨S320000x64, .f32⟩
  | 66 => ⟨S320000x64, .f32⟩
  | 67 => ⟨S_, .f32⟩
  | 68 => ⟨S20000x64, .f32⟩
  | 69 => ⟨S320000x1, .i32⟩
  | 70 => ⟨S20000x64, .f32⟩
  | 71 => ⟨S20000x64, .f32⟩
  | 72 => ⟨S20000x64, .f32⟩
  | 73 => ⟨S1x64, .f32⟩
  | 74 => ⟨S20000x64, .f32⟩
  | 75 => ⟨S20000x64, .f32⟩
  | 76 => ⟨S_, .f32⟩
  | 77 => ⟨S20000, .f32⟩
  | 78 => ⟨S_, .f32⟩
  | 79 => ⟨S20000, .f32⟩
  | 80 => ⟨S20000, .f32⟩
  | 81 => ⟨S20000x1, .f32⟩
  | 82 => ⟨S20000x64, .f32⟩
  | 83 => ⟨S20000x64, .f32⟩
  | 84 => ⟨S20000x64, .f32⟩
  | 85 => ⟨S_, .f32⟩
  | 86 => ⟨S20000, .f32⟩
  | 87 => ⟨S20000x1, .f32⟩
  | 88 => ⟨S20000x64, .f32⟩
  | 89 => ⟨S20000x64, .f32⟩
  | _ => ⟨S20000x256, .f32⟩

abbrev hbmTy (i : Nat) : BufTy := match i / 128 with
  | 0 => hbmTy0_0 i
  | 1 => hbmTy0_1 i
  | _ => ⟨S20000x256, .f32⟩

abbrev bufTy : (tb : Table) → Fin (tcTables nBuf tb) → BufTy
  | .hbm, ⟨i, _⟩ => hbmTy i
  | _, _ => ⟨S20000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_c : Ref sig .tc := ⟨.hbm, 42, rfl⟩
abbrev main_v16 : Ref sig .tc := ⟨.hbm, 43, rfl⟩
abbrev main_v17 : Ref sig .tc := ⟨.hbm, 44, rfl⟩
abbrev main_c_0 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_c_1 : Ref sig .tc := ⟨.hbm, 51, rfl⟩
abbrev main_v23 : Ref sig .tc := ⟨.hbm, 52, rfl⟩
abbrev main_v24 : Ref sig .tc := ⟨.hbm, 53, rfl⟩
abbrev main_c_2 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_cst : Ref sig .tc := ⟨.hbm, 63, rfl⟩
abbrev main_v33 : Ref sig .tc := ⟨.hbm, 64, rfl⟩
abbrev main_v34 : Ref sig .tc := ⟨.hbm, 65, rfl⟩
abbrev main_cst_3 : Ref sig .tc := ⟨.hbm, 66, rfl⟩
abbrev main_v35 : Ref sig .tc := ⟨.hbm, 67, rfl⟩
abbrev main_v36 : Ref sig .tc := ⟨.hbm, 68, rfl⟩
abbrev main_c_4 : Ref sig .tc := ⟨.hbm, 69, rfl⟩
abbrev main_v37 : Ref sig .tc := ⟨.hbm, 70, rfl⟩
abbrev main_v38 : Ref sig .tc := ⟨.hbm, 71, rfl⟩
abbrev main_c_5 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_cst_6 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_c_7 : Ref sig .tc := ⟨.hbm, 100, rfl⟩
abbrev main_v65 : Ref sig .tc := ⟨.hbm, 101, rfl⟩
abbrev main_v66 : Ref sig .tc := ⟨.hbm, 102, rfl⟩
abbrev main_c_8 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_c_9 : Ref sig .tc := ⟨.hbm, 109, rfl⟩
abbrev main_v72 : Ref sig .tc := ⟨.hbm, 110, rfl⟩
abbrev main_v73 : Ref sig .tc := ⟨.hbm, 111, rfl⟩
abbrev main_c_10 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_cst_11 : Ref sig .tc := ⟨.hbm, 121, rfl⟩
abbrev main_v82 : Ref sig .tc := ⟨.hbm, 122, rfl⟩
abbrev main_v83 : Ref sig .tc := ⟨.hbm, 123, rfl⟩
abbrev main_cst_12 : Ref sig .tc := ⟨.hbm, 124, rfl⟩
abbrev main_v84 : Ref sig .tc := ⟨.hbm, 125, rfl⟩
abbrev main_v85 : Ref sig .tc := ⟨.hbm, 126, rfl⟩
abbrev main_c_13 : Ref sig .tc := ⟨.hbm, 127, rfl⟩
abbrev main_v86 : Ref sig .tc := ⟨.hbm, 128, rfl⟩
abbrev main_v87 : Ref sig .tc := ⟨.hbm, 129, rfl⟩
abbrev main_c_14 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_cst_15 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_c_16 : Ref sig .tc := ⟨.hbm, 158, rfl⟩
abbrev main_v114 : Ref sig .tc := ⟨.hbm, 159, rfl⟩
abbrev main_v115 : Ref sig .tc := ⟨.hbm, 160, rfl⟩
abbrev main_c_17 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_c_18 : Ref sig .tc := ⟨.hbm, 167, rfl⟩
abbrev main_v121 : Ref sig .tc := ⟨.hbm, 168, rfl⟩
abbrev main_v122 : Ref sig .tc := ⟨.hbm, 169, rfl⟩
abbrev main_c_19 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩
abbrev main_cst_20 : Ref sig .tc := ⟨.hbm, 179, rfl⟩
abbrev main_v131 : Ref sig .tc := ⟨.hbm, 180, rfl⟩
abbrev main_v132 : Ref sig .tc := ⟨.hbm, 181, rfl⟩
abbrev main_cst_21 : Ref sig .tc := ⟨.hbm, 182, rfl⟩
abbrev main_v133 : Ref sig .tc := ⟨.hbm, 183, rfl⟩
abbrev main_v134 : Ref sig .tc := ⟨.hbm, 184, rfl⟩
abbrev main_c_22 : Ref sig .tc := ⟨.hbm, 185, rfl⟩
abbrev main_v135 : Ref sig .tc := ⟨.hbm, 186, rfl⟩
abbrev main_v136 : Ref sig .tc := ⟨.hbm, 187, rfl⟩
abbrev main_c_23 : Ref sig .tc := ⟨.hbm, 188, rfl⟩
abbrev main_v137 : Ref sig .tc := ⟨.hbm, 189, rfl⟩
abbrev main_v138 : Ref sig .tc := ⟨.hbm, 190, rfl⟩
abbrev main_v139 : Ref sig .tc := ⟨.hbm, 191, rfl⟩
abbrev main_v140 : Ref sig .tc := ⟨.hbm, 192, rfl⟩
abbrev main_v141 : Ref sig .tc := ⟨.hbm, 193, rfl⟩
abbrev main_v142 : Ref sig .tc := ⟨.hbm, 194, rfl⟩
abbrev main_cst_24 : Ref sig .tc := ⟨.hbm, 195, rfl⟩
abbrev main_v143 : Ref sig .tc := ⟨.hbm, 196, rfl⟩
abbrev main_v144 : Ref sig .tc := ⟨.hbm, 197, rfl⟩
abbrev main_v145 : Ref sig .tc := ⟨.hbm, 198, rfl⟩
abbrev main_v146 : Ref sig .tc := ⟨.hbm, 199, rfl⟩
abbrev main_v147 : Ref sig .tc := ⟨.hbm, 200, rfl⟩
abbrev main_v148 : Ref sig .tc := ⟨.hbm, 201, rfl⟩
abbrev main_v149 : Ref sig .tc := ⟨.hbm, 202, rfl⟩
abbrev main_v150 : Ref sig .tc := ⟨.hbm, 203, rfl⟩
abbrev main_cst_25 : Ref sig .tc := ⟨.hbm, 204, rfl⟩
abbrev main_v151 : Ref sig .tc := ⟨.hbm, 205, rfl⟩
abbrev main_cst_26 : Ref sig .tc := ⟨.hbm, 206, rfl⟩
abbrev main_v152 : Ref sig .tc := ⟨.hbm, 207, rfl⟩
abbrev main_v153 : Ref sig .tc := ⟨.hbm, 208, rfl⟩
abbrev main_v154 : Ref sig .tc := ⟨.hbm, 209, rfl⟩
abbrev main_v155 : Ref sig .tc := ⟨.hbm, 210, rfl⟩
abbrev main_v156 : Ref sig .tc := ⟨.hbm, 211, rfl⟩
abbrev main_v157 : Ref sig .tc := ⟨.hbm, 212, rfl⟩
abbrev main_cst_27 : Ref sig .tc := ⟨.hbm, 213, rfl⟩
abbrev main_v158 : Ref sig .tc := ⟨.hbm, 214, rfl⟩
abbrev main_v159 : Ref sig .tc := ⟨.hbm, 215, rfl⟩
abbrev main_v160 : Ref sig .tc := ⟨.hbm, 216, rfl⟩
abbrev main_v161 : Ref sig .tc := ⟨.hbm, 217, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S256_S1x256_1 : S256.BroadcastsInDim S1x256 (![1] : Fin 1 → Fin S1x256.rank)
  bcast_S1x256_S20000x256_0_1 : S1x256.BroadcastsInDim S20000x256 (![0, 1] : Fin 2 → Fin S20000x256.rank)
  bcast_S_S320000 : S_.BroadcastsInDim S320000 (![] : Fin 0 → Fin S320000.rank)
  bcast_S320000_S320000x1_0 : S320000.BroadcastsInDim S320000x1 (![0] : Fin 1 → Fin S320000x1.rank)
  bcast_S_S320000x256 : S_.BroadcastsInDim S320000x256 (![] : Fin 0 → Fin S320000x256.rank)
  bcast_S_S20000x256 : S_.BroadcastsInDim S20000x256 (![] : Fin 0 → Fin S20000x256.rank)
  bcast_S128_S1x128_1 : S128.BroadcastsInDim S1x128 (![1] : Fin 1 → Fin S1x128.rank)
  bcast_S1x128_S20000x128_0_1 : S1x128.BroadcastsInDim S20000x128 (![0, 1] : Fin 2 → Fin S20000x128.rank)
  bcast_S_S320000x128 : S_.BroadcastsInDim S320000x128 (![] : Fin 0 → Fin S320000x128.rank)
  bcast_S_S20000x128 : S_.BroadcastsInDim S20000x128 (![] : Fin 0 → Fin S20000x128.rank)
  bcast_S64_S1x64_1 : S64.BroadcastsInDim S1x64 (![1] : Fin 1 → Fin S1x64.rank)
  bcast_S1x64_S20000x64_0_1 : S1x64.BroadcastsInDim S20000x64 (![0, 1] : Fin 2 → Fin S20000x64.rank)
  bcast_S_S320000x64 : S_.BroadcastsInDim S320000x64 (![] : Fin 0 → Fin S320000x64.rank)
  bcast_S_S20000x64 : S_.BroadcastsInDim S20000x64 (![] : Fin 0 → Fin S20000x64.rank)
  reducesTo_S20000x64_S20000_d1 : S20000x64.ReducesTo [1] S20000
  h_S_ : 0 < S_.numel
  bcast_S_S20000 : S_.BroadcastsInDim S20000 (![] : Fin 0 → Fin S20000.rank)
  bcast_S20000_S20000x1_0 : S20000.BroadcastsInDim S20000x1 (![0] : Fin 1 → Fin S20000x1.rank)
  bcast_S20000x1_S20000x64_0_1 : S20000x1.BroadcastsInDim S20000x64 (![0, 1] : Fin 2 → Fin S20000x64.rank)
  dot_S20000x256_S256x256_S20000x256_1_0_0_1_n_n_wf : DotDims.WF S20000x256 S256x256 S20000x256 [1] [0] [0] [1] [] []
  gather_S20000x256_S320000x1_S320000x256_1_0_n_n_0_1_1256_wf : GatherDims.WF S20000x256 S320000x1 S320000x256 [1] [0] [] [0] [] 1 ![1, 256]
  scatter_S20000x256_S320000x1_S320000x256_1_0_0_1_wf : ScatterDims.WF S20000x256 S320000x1 S320000x256 [1] [0] [0] 1
  dot_S20000x256_S256x128_S20000x128_1_0_0_1_n_n_wf : DotDims.WF S20000x256 S256x128 S20000x128 [1] [0] [0] [1] [] []
  gather_S20000x128_S320000x1_S320000x128_1_0_n_n_0_1_1128_wf : GatherDims.WF S20000x128 S320000x1 S320000x128 [1] [0] [] [0] [] 1 ![1, 128]
  scatter_S20000x128_S320000x1_S320000x128_1_0_0_1_wf : ScatterDims.WF S20000x128 S320000x1 S320000x128 [1] [0] [0] 1
  dot_S20000x128_S128x64_S20000x64_1_0_0_1_n_n_wf : DotDims.WF S20000x128 S128x64 S20000x64 [1] [0] [0] [1] [] []
  gather_S20000x64_S320000x1_S320000x64_1_0_n_n_0_1_164_wf : GatherDims.WF S20000x64 S320000x1 S320000x64 [1] [0] [] [0] [] 1 ![1, 64]
  scatter_S20000x64_S320000x1_S320000x64_1_0_0_1_wf : ScatterDims.WF S20000x64 S320000x1 S320000x64 [1] [0] [0] 1

variable [Facts₀]

def dot_S20000x256_S256x256_S20000x256_1_0_0_1_n_n : DotDims S20000x256 S256x256 S20000x256 where
  lhsContracting := [1]
  rhsContracting := [0]
  lhsNonContracting := [0]
  rhsNonContracting := [1]
  lhsBatch := []
  rhsBatch := []
  wf := dot_S20000x256_S256x256_S20000x256_1_0_0_1_n_n_wf
def gather_S20000x256_S320000x1_S320000x256_1_0_n_n_0_1_1256 : GatherDims S20000x256 S320000x1 S320000x256 where
  offsetDims := [1]
  collapsedSliceDims := [0]
  operandBatchingDims := []
  startIndicesBatchingDims := []
  startIndexMap := [0]
  indexVectorDim := 1
  sliceSizes := ![1, 256]
  wf := gather_S20000x256_S320000x1_S320000x256_1_0_n_n_0_1_1256_wf
def scatter_S20000x256_S320000x1_S320000x256_1_0_0_1 : ScatterDims S20000x256 S320000x1 S320000x256 where
  updateWindowDims := [1]
  insertedWindowDims := [0]
  scatterDimsToOperandDims := [0]
  indexVectorDim := 1
  wf := scatter_S20000x256_S320000x1_S320000x256_1_0_0_1_wf
def dot_S20000x256_S256x128_S20000x128_1_0_0_1_n_n : DotDims S20000x256 S256x128 S20000x128 where
  lhsContracting := [1]
  rhsContracting := [0]
  lhsNonContracting := [0]
  rhsNonContracting := [1]
  lhsBatch := []
  rhsBatch := []
  wf := dot_S20000x256_S256x128_S20000x128_1_0_0_1_n_n_wf
def gather_S20000x128_S320000x1_S320000x128_1_0_n_n_0_1_1128 : GatherDims S20000x128 S320000x1 S320000x128 where
  offsetDims := [1]
  collapsedSliceDims := [0]
  operandBatchingDims := []
  startIndicesBatchingDims := []
  startIndexMap := [0]
  indexVectorDim := 1
  sliceSizes := ![1, 128]
  wf := gather_S20000x128_S320000x1_S320000x128_1_0_n_n_0_1_1128_wf
def scatter_S20000x128_S320000x1_S320000x128_1_0_0_1 : ScatterDims S20000x128 S320000x1 S320000x128 where
  updateWindowDims := [1]
  insertedWindowDims := [0]
  scatterDimsToOperandDims := [0]
  indexVectorDim := 1
  wf := scatter_S20000x128_S320000x1_S320000x128_1_0_0_1_wf
def dot_S20000x128_S128x64_S20000x64_1_0_0_1_n_n : DotDims S20000x128 S128x64 S20000x64 where
  lhsContracting := [1]
  rhsContracting := [0]
  lhsNonContracting := [0]
  rhsNonContracting := [1]
  lhsBatch := []
  rhsBatch := []
  wf := dot_S20000x128_S128x64_S20000x64_1_0_0_1_n_n_wf
def gather_S20000x64_S320000x1_S320000x64_1_0_n_n_0_1_164 : GatherDims S20000x64 S320000x1 S320000x64 where
  offsetDims := [1]
  collapsedSliceDims := [0]
  operandBatchingDims := []
  startIndicesBatchingDims := []
  startIndexMap := [0]
  indexVectorDim := 1
  sliceSizes := ![1, 64]
  wf := gather_S20000x64_S320000x1_S320000x64_1_0_n_n_0_1_164_wf
def scatter_S20000x64_S320000x1_S320000x64_1_0_0_1 : ScatterDims S20000x64 S320000x1 S320000x64 where
  updateWindowDims := [1]
  insertedWindowDims := [0]
  scatterDimsToOperandDims := [0]
  indexVectorDim := 1
  wf := scatter_S20000x64_S320000x1_S320000x64_1_0_0_1_wf

class Facts : Prop extends Facts₀ where

variable [Facts]
-- ==== Proof.Kernel.RegionBody.lean ====
import proofs.«414254_j90761248899606_1_alg».proof.Proof.KernelLaunch
import proofs.«414254_j90761248899606_1_alg».proof.Proof.Gen.Kernel.Skeleton
import proofs.«414254_j90761248899606_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel.Gen

variable {F : FTy → Type} [FloatOps F] {S0 S1 S2 S3 : Shape}

local notation "𝕄" => MT nD τ sig Unit (Elt F) ℕ (UR sig nD τ) ℕ

/-- A body that loads four buffers and then stores in the fourth a function of what it loaded from the first three. -/
def loads3Store (a0 : Memref sig .tc .vmem S0 .f32) (a1 : Memref sig .tc .vmem S1 .f32) (a2 : Memref sig .tc .vmem S2 .f32)
    (a3 : Memref sig .tc .vmem S3 .f32) (r0 : Rect S0) (r1 : Rect S1) (r2 : Rect S2) (r3 : Rect S3)
    (l0 : a0.view.LoadsAt r0.toLoadRect) (l1 : a1.view.LoadsAt r1.toLoadRect) (l2 : a2.view.LoadsAt r2.toLoadRect)
    (l3 : a3.view.LoadsAt r3.toLoadRect) (hs : (a3.access r3).Stores Finset.univ)
    (pay : (r0.shape.Idx → Elt F .f32) → (r1.shape.Idx → Elt F .f32) → (r2.shape.Idx → Elt F .f32) → r3.shape.Idx → Elt F .f32) :
    Prog (TpuEff nD τ sig (Elt F) Λ₀ .tc) PUnit := do
  let v0 ← Prog.lift (.load a0 r0.toLoadRect l0)
  let v1 ← Prog.lift (.load a1 r1.toLoadRect l1)
  let v2 ← Prog.lift (.load a2 r2.toLoadRect l2)
  let _ ← Prog.lift (.load a3 r3.toLoadRect l3)
  Prog.lift (.store a3 r3 (pay v0 v1 v2) Finset.univ hs (.inl rfl))
  pure ⟨⟩

/-- The loads change nothing and the store covers the fourth buffer, so the first three are kept, the fourth holds the stored value, and whatever else is held passes through. -/
theorem loads3Store_spec (c : Dev nD) {a0 : Memref sig .tc .vmem S0 .f32} {a1 : Memref sig .tc .vmem S1 .f32}
    {a2 : Memref sig .tc .vmem S2 .f32} {a3 : Memref sig .tc .vmem S3 .f32} {r0 : Rect S0} {r1 : Rect S1} {r2 : Rect S2} {r3 : Rect S3}
    {l0 l1 l2 l3 hs pay} (hcov : ∀ p y, ∃ pc ∈ ([⟨r3, p⟩] : List (View.Piece (Elt F) S3 .f32)), y ∈ pc.1.set)
    {Φ Ω Φ' Ω' : sProp 𝕄} {D0 D1 D2 D3 : Type} {b0 : D0 → Vec F S0 .f32} {b1 : D1 → Vec F S1 .f32} {b2 : D2 → Vec F S2 .f32}
    {b3 : D3 → Vec F S3 .f32} {x0 x1 x2 y3} (h0 : ∀ d, b0 d = x0) (h1 : ∀ d, b1 d = x1) (h2 : ∀ d, b2 d = x2)
    (hΦ : Φ' = Φ) (hΩ : Ω' = Ω) (h3 : y3 = View.canon [⟨r3, pay (View.ld x0 r0) (View.ld x1 r1) (View.ld x2 r2)⟩]) :
    iprop(Φ ∗ Ω ∗ (∃ d, owns (c : Thread nD τ) a0 fullShare (b0 d)) ∗ (∃ d, owns (c : Thread nD τ) a1 fullShare (b1 d))
        ∗ (∃ d, owns (c : Thread nD τ) a2 fullShare (b2 d)) ∗ (∃ d, owns (c : Thread nD τ) a3 fullShare (b3 d)))
      ⊢ wp frame (wpE (defs₀ (F := F)) Variants.none c none) Set.univ (loads3Store a0 a1 a2 a3 r0 r1 r2 r3 l0 l1 l2 l3 hs pay) fun _ =>
        iprop(Φ' ∗ Ω' ∗ owns (c : Thread nD τ) a0 fullShare x0 ∗ owns (c : Thread nD τ) a1 fullShare x1 ∗ owns (c : Thread nD τ) a2 fullShare x2
          ∗ owns (c : Thread nD τ) a3 fullShare y3) := by
  subst hΦ hΩ h3
  simp only [h0, h1, h2]
  unfold loads3Store owns
  iintro ⟨HΦ, Ho, ⟨%_, %f0, %hf0, H0⟩, ⟨%_, %f1, %hf1, H1⟩, ⟨%_, %f2, %hf2, H2⟩, ⟨%_, %f3, -, H3⟩⟩
  subst hf0 hf1 hf2
  sl_exec
  sl_step
  iframe
  isplitl [H0]; · iexists f0; iframe; ipureintro; rfl
  isplitl [H1]; · iexists f1; iframe; ipureintro; rfl
  isplitl [H2]; · iexists f2; iframe; ipureintro; rfl
  iexists _; iframe; ipureintro
  exact View.read_writes_eq_canon _ _ _ (hcov _)

end Cert.Kernel.Body

end
-- ==== Proof.Kernel.Region0.lean ====
import proofs.«414254_j90761248899606_1_alg».proof.Proof.Kernel.RegionBody

noncomputable section

namespace Cert.Kernel.Body

open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat BodyObligation)
open Cert.Kernel.Gen Cert.Kernel.GenP

variable {F : FTy → Type} [FloatOps F]

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S1000x256 := Rect.unit (s := S1000x256) ![0, 0] S1000x256.size inb_S1000x256_S1000x256_0_0
abbrev r0_1 : Rect S256x1024 := Rect.unit (s := S256x1024) ![0, 0] S256x1024.size inb_S256x1024_S256x1024_0_0
abbrev r0_2 : Rect S1x1024 := Rect.unit (s := S1x1024) ![0, 0] S1x1024.size inb_S1x1024_S1x1024_0_0
abbrev r0_3 : Rect S1000x1024 := Rect.unit (s := S1000x1024) ![0, 0] S1000x1024.size inb_S1000x1024_S1000x1024_0_0

def out0_3 (x0 : Vec F S1000x256 .f32) (x1 : Vec F S256x1024 .f32) (x2 : Vec F S1x1024 .f32) : Vec F S1000x1024 .f32 :=
  View.canon [⟨r0_3, k0_pay1 (View.ld x0 r0_0) (View.ld x1 r0_1) (View.ld x2 r0_2)⟩]

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_3 (c : Dev nD) (t : Fin cfg0.N) :
    (dat0 V c).after 3 t = out0_3 (iblk0 V c 0 t) (iblk0 V c 1 t) (iblk0 V c 2 t) := by dsimp only [dat0]

/-- The body is three whole loads and one whole store, and each input's buffer holds before the body what it holds after. -/
theorem body_obligation0 (c : Dev nD) : BodyObligation (dat0 (F := F) V c) (defs₀ (F := F)) Variants.none () Set.univ := fun t => by
  rw [bigSep_W0, bigSep_W0]
  show _ ⊢ wp _ _ _ (bodyAt0 t) _
  rw [show bodyAt0 (F := F) t = loads3Store (st0_0 t) (st0_1 t) (st0_2 t) (st0_3 t) r0_0 r0_1 r0_2 r0_3 _ _ _ _ _ k0_pay1 by
    unfold bodyAt0; rw [cc0__linear_kernel_eq_skeleton]; rfl]
  exact loads3Store_spec c (fun p => View.cover_of_tiled [⟨r0_3, p⟩] S1000x1024.size (by rfl))
    (fun d => (Dat.before_in_eq_fetched _ 0 rfl (fun _ => rfl) (fun _ _ _ => rfl) (fun _ => rfl) t d).trans rfl)
    (fun d => (Dat.before_in_eq_fetched _ 1 rfl (fun _ => rfl) (fun _ _ _ => rfl) (fun _ => rfl) t d).trans rfl)
    (fun d => (Dat.before_in_eq_fetched _ 2 rfl (fun _ => rfl) (fun _ _ _ => rfl) (fun _ => rfl) t d).trans rfl)
    rfl rfl (by dsimp only [dat0]; rfl)

end Cert.Kernel.Body

end
-- ==== Proof.Kernel.Region1.lean ====
import proofs.«414254_j90761248899606_1_alg».proof.Proof.Kernel.RegionBody

noncomputable section

namespace Cert.Kernel.Body

open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat BodyObligation)
open Cert.Kernel.Gen Cert.Kernel.GenP

variable {F : FTy → Type} [FloatOps F]

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S2000x256 := Rect.unit (s := S2000x256) ![0, 0] S2000x256.size inb_S2000x256_S2000x256_0_0
abbrev r1_1 : Rect S2000x256 := Rect.unit (s := S2000x256) ![0, 0] S2000x256.size inb_S2000x256_S2000x256_0_0
abbrev r1_2 : Rect S2000x256 := Rect.unit (s := S2000x256) ![0, 0] S2000x256.size inb_S2000x256_S2000x256_0_0
abbrev r1_3 : Rect S2000x256 := Rect.unit (s := S2000x256) ![0, 0] S2000x256.size inb_S2000x256_S2000x256_0_0

def out1_3 (x0 : Vec F S2000x256 .f32) (x1 : Vec F S2000x256 .f32) (x2 : Vec F S2000x256 .f32) : Vec F S2000x256 .f32 :=
  View.canon [⟨r1_3, k1_pay1 (View.ld x0 r1_0) (View.ld x1 r1_1) (View.ld x2 r1_2)⟩]

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_3 (c : Dev nD) (t : Fin cfg1.N) :
    (dat1 V c).after 3 t = out1_3 (iblk1 V c 0 t) (iblk1 V c 1 t) (iblk1 V c 2 t) := by dsimp only [dat1]

/-- The body is three whole loads and one whole store, and each input's buffer holds before the body what it holds after. -/
theorem body_obligation1 (c : Dev nD) : BodyObligation (dat1 (F := F) V c) (defs₀ (F := F)) Variants.none () Set.univ := fun t => by
  rw [bigSep_W1, bigSep_W1]
  show _ ⊢ wp _ _ _ (bodyAt1 t) _
  rw [show bodyAt1 (F := F) t = loads3Store (st1_0 t) (st1_1 t) (st1_2 t) (st1_3 t) r1_0 r1_1 r1_2 r1_3 _ _ _ _ _ k1_pay1 by
    unfold bodyAt1; rw [cc1__gating_kernel_eq_skeleton]; rfl]
  exact loads3Store_spec c (fun p => View.cover_of_tiled [⟨r1_3, p⟩] S2000x256.size (by rfl))
    (fun d => (Dat.before_in_eq_fetched _ 0 rfl (fun _ => rfl) (fun _ _ _ => rfl) (fun _ => rfl) t d).trans rfl)
    (fun d => (Dat.before_in_eq_fetched _ 1 rfl (fun _ => rfl) (fun _ _ _ => rfl) (fun _ => rfl) t d).trans rfl)
    (fun d => (Dat.before_in_eq_fetched _ 2 rfl (fun _ => rfl) (fun _ _ _ => rfl) (fun _ => rfl) t d).trans rfl)
    rfl rfl (by dsimp only [dat1]; rfl)

end Cert.Kernel.Body

end
-- ==== Proof.Kernel.Region2.lean ====
import proofs.«414254_j90761248899606_1_alg».proof.Proof.Kernel.RegionBody

noncomputable section

namespace Cert.Kernel.Body

open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat BodyObligation)
open Cert.Kernel.Gen Cert.Kernel.GenP

variable {F : FTy → Type} [FloatOps F]

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S1000x256 := Rect.unit (s := S1000x256) ![0, 0] S1000x256.size inb_S1000x256_S1000x256_0_0
abbrev r2_1 : Rect S256x512 := Rect.unit (s := S256x512) ![0, 0] S256x512.size inb_S256x512_S256x512_0_0
abbrev r2_2 : Rect S1x512 := Rect.unit (s := S1x512) ![0, 0] S1x512.size inb_S1x512_S1x512_0_0
abbrev r2_3 : Rect S1000x512 := Rect.unit (s := S1000x512) ![0, 0] S1000x512.size inb_S1000x512_S1000x512_0_0

def out2_3 (x0 : Vec F S1000x256 .f32) (x1 : Vec F S256x512 .f32) (x2 : Vec F S1x512 .f32) : Vec F S1000x512 .f32 :=
  View.canon [⟨r2_3, k2_pay1 (View.ld x0 r2_0) (View.ld x1 r2_1) (View.ld x2 r2_2)⟩]

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_3 (c : Dev nD) (t : Fin cfg2.N) :
    (dat2 V c).after 3 t = out2_3 (iblk2 V c 0 t) (iblk2 V c 1 t) (iblk2 V c 2 t) := by dsimp only [dat2]

/-- The body is three whole loads and one whole store, and each input's buffer holds before the body what it holds after. -/
theorem body_obligation2 (c : Dev nD) : BodyObligation (dat2 (F := F) V c) (defs₀ (F := F)) Variants.none () Set.univ := fun t => by
  rw [bigSep_W2, bigSep_W2]
  show _ ⊢ wp _ _ _ (bodyAt2 t) _
  rw [show bodyAt2 (F := F) t = loads3Store (st2_0 t) (st2_1 t) (st2_2 t) (st2_3 t) r2_0 r2_1 r2_2 r2_3 _ _ _ _ _ k2_pay1 by
    unfold bodyAt2; rw [cc2__linear_kernel_eq_skeleton]; rfl]
  exact loads3Store_spec c (fun p => View.cover_of_tiled [⟨r2_3, p⟩] S1000x512.size (by rfl))
    (fun d => (Dat.before_in_eq_fetched _ 0 rfl (fun _ => rfl) (fun _ _ _ => rfl) (fun _ => rfl) t d).trans rfl)
    (fun d => (Dat.before_in_eq_fetched _ 1 rfl (fun _ => rfl) (fun _ _ _ => rfl) (fun _ => rfl) t d).trans rfl)
    (fun d => (Dat.before_in_eq_fetched _ 2 rfl (fun _ => rfl) (fun _ _ _ => rfl) (fun _ => rfl) t d).trans rfl)
    rfl rfl (by dsimp only [dat2]; rfl)

end Cert.Kernel.Body

end
-- ==== Proof.Kernel.Region3.lean ====
import proofs.«414254_j90761248899606_1_alg».proof.Proof.Kernel.RegionBody

noncomputable section

namespace Cert.Kernel.Body

open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat BodyObligation)
open Cert.Kernel.Gen Cert.Kernel.GenP

variable {F : FTy → Type} [FloatOps F]

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect S2000x128 := Rect.unit (s := S2000x128) ![0, 0] S2000x128.size inb_S2000x128_S2000x128_0_0
abbrev r3_1 : Rect S2000x128 := Rect.unit (s := S2000x128) ![0, 0] S2000x128.size inb_S2000x128_S2000x128_0_0
abbrev r3_2 : Rect S2000x128 := Rect.unit (s := S2000x128) ![0, 0] S2000x128.size inb_S2000x128_S2000x128_0_0
abbrev r3_3 : Rect S2000x128 := Rect.unit (s := S2000x128) ![0, 0] S2000x128.size inb_S2000x128_S2000x128_0_0

def out3_3 (x0 : Vec F S2000x128 .f32) (x1 : Vec F S2000x128 .f32) (x2 : Vec F S2000x128 .f32) : Vec F S2000x128 .f32 :=
  View.canon [⟨r3_3, k3_pay1 (View.ld x0 r3_0) (View.ld x1 r3_1) (View.ld x2 r3_2)⟩]

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_3 (c : Dev nD) (t : Fin cfg3.N) :
    (dat3 V c).after 3 t = out3_3 (iblk3 V c 0 t) (iblk3 V c 1 t) (iblk3 V c 2 t) := by dsimp only [dat3]

/-- The body is three whole loads and one whole store, and each input's buffer holds before the body what it holds after. -/
theorem body_obligation3 (c : Dev nD) : BodyObligation (dat3 (F := F) V c) (defs₀ (F := F)) Variants.none () Set.univ := fun t => by
  rw [bigSep_W3, bigSep_W3]
  show _ ⊢ wp _ _ _ (bodyAt3 t) _
  rw [show bodyAt3 (F := F) t = loads3Store (st3_0 t) (st3_1 t) (st3_2 t) (st3_3 t) r3_0 r3_1 r3_2 r3_3 _ _ _ _ _ k3_pay1 by
    unfold bodyAt3; rw [cc3__gating_kernel_eq_skeleton]; rfl]
  exact loads3Store_spec c (fun p => View.cover_of_tiled [⟨r3_3, p⟩] S2000x128.size (by rfl))
    (fun d => (Dat.before_in_eq_fetched _ 0 rfl (fun _ => rfl) (fun _ _ _ => rfl) (fun _ => rfl) t d).trans rfl)
    (fun d => (Dat.before_in_eq_fetched _ 1 rfl (fun _ => rfl) (fun _ _ _ => rfl) (fun _ => rfl) t d).trans rfl)
    (fun d => (Dat.before_in_eq_fetched _ 2 rfl (fun _ => rfl) (fun _ _ _ => rfl) (fun _ => rfl) t d).trans rfl)
    rfl rfl (by dsimp only [dat3]; rfl)

end Cert.Kernel.Body

end
-- ==== Proof.Kernel.Region4.lean ====
import proofs.«414254_j90761248899606_1_alg».proof.Proof.Kernel.RegionBody

noncomputable section

namespace Cert.Kernel.Body

open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat BodyObligation)
open Cert.Kernel.Gen Cert.Kernel.GenP

variable {F : FTy → Type} [FloatOps F]

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_0 : Rect S1000x128 := Rect.unit (s := S1000x128) ![0, 0] S1000x128.size inb_S1000x128_S1000x128_0_0
abbrev r4_1 : Rect S128x256 := Rect.unit (s := S128x256) ![0, 0] S128x256.size inb_S128x256_S128x256_0_0
abbrev r4_2 : Rect S1x256 := Rect.unit (s := S1x256) ![0, 0] S1x256.size inb_S1x256_S1x256_0_0
abbrev r4_3 : Rect S1000x256 := Rect.unit (s := S1000x256) ![0, 0] S1000x256.size inb_S1000x256_S1000x256_0_0

def out4_3 (x0 : Vec F S1000x128 .f32) (x1 : Vec F S128x256 .f32) (x2 : Vec F S1x256 .f32) : Vec F S1000x256 .f32 :=
  View.canon [⟨r4_3, k4_pay1 (View.ld x0 r4_0) (View.ld x1 r4_1) (View.ld x2 r4_2)⟩]

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_3 (c : Dev nD) (t : Fin cfg4.N) :
    (dat4 V c).after 3 t = out4_3 (iblk4 V c 0 t) (iblk4 V c 1 t) (iblk4 V c 2 t) := by dsimp only [dat4]

/-- The body is three whole loads and one whole store, and each input's buffer holds before the body what it holds after. -/
theorem body_obligation4 (c : Dev nD) : BodyObligation (dat4 (F := F) V c) (defs₀ (F := F)) Variants.none () Set.univ := fun t => by
  rw [bigSep_W4, bigSep_W4]
  show _ ⊢ wp _ _ _ (bodyAt4 t) _
  rw [show bodyAt4 (F := F) t = loads3Store (st4_0 t) (st4_1 t) (st4_2 t) (st4_3 t) r4_0 r4_1 r4_2 r4_3 _ _ _ _ _ k4_pay1 by
    unfold bodyAt4; rw [cc4__linear_kernel_eq_skeleton]; rfl]
  exact loads3Store_spec c (fun p => View.cover_of_tiled [⟨r4_3, p⟩] S1000x256.size (by rfl))
    (fun d => (Dat.before_in_eq_fetched _ 0 rfl (fun _ => rfl) (fun _ _ _ => rfl) (fun _ => rfl) t d).trans rfl)
    (fun d => (Dat.before_in_eq_fetched _ 1 rfl (fun _ => rfl) (fun _ _ _ => rfl) (fun _ => rfl) t d).trans rfl)
    (fun d => (Dat.before_in_eq_fetched _ 2 rfl (fun _ => rfl) (fun _ _ _ => rfl) (fun _ => rfl) t d).trans rfl)
    rfl rfl (by dsimp only [dat4]; rfl)

end Cert.Kernel.Body

end
-- ==== Proof.Kernel.Region5.lean ====
import proofs.«414254_j90761248899606_1_alg».proof.Proof.Kernel.RegionBody

noncomputable section

namespace Cert.Kernel.Body

open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat BodyObligation)
open Cert.Kernel.Gen Cert.Kernel.GenP

variable {F : FTy → Type} [FloatOps F]

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev r5_0 : Rect S2000x64 := Rect.unit (s := S2000x64) ![0, 0] S2000x64.size inb_S2000x64_S2000x64_0_0
abbrev r5_1 : Rect S2000x64 := Rect.unit (s := S2000x64) ![0, 0] S2000x64.size inb_S2000x64_S2000x64_0_0
abbrev r5_2 : Rect S2000x64 := Rect.unit (s := S2000x64) ![0, 0] S2000x64.size inb_S2000x64_S2000x64_0_0
abbrev r5_3 : Rect S2000x64 := Rect.unit (s := S2000x64) ![0, 0] S2000x64.size inb_S2000x64_S2000x64_0_0

def out5_3 (x0 : Vec F S2000x64 .f32) (x1 : Vec F S2000x64 .f32) (x2 : Vec F S2000x64 .f32) : Vec F S2000x64 .f32 :=
  View.canon [⟨r5_3, k5_pay1 (View.ld x0 r5_0) (View.ld x1 r5_1) (View.ld x2 r5_2)⟩]

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_3 (c : Dev nD) (t : Fin cfg5.N) :
    (dat5 V c).after 3 t = out5_3 (iblk5 V c 0 t) (iblk5 V c 1 t) (iblk5 V c 2 t) := by dsimp only [dat5]

/-- The body is three whole loads and one whole store, and each input's buffer holds before the body what it holds after. -/
theorem body_obligation5 (c : Dev nD) : BodyObligation (dat5 (F := F) V c) (defs₀ (F := F)) Variants.none () Set.univ := fun t => by
  rw [bigSep_W5, bigSep_W5]
  show _ ⊢ wp _ _ _ (bodyAt5 t) _
  rw [show bodyAt5 (F := F) t = loads3Store (st5_0 t) (st5_1 t) (st5_2 t) (st5_3 t) r5_0 r5_1 r5_2 r5_3 _ _ _ _ _ k5_pay1 by
    unfold bodyAt5; rw [cc5__gating_kernel_eq_skeleton]; rfl]
  exact loads3Store_spec c (fun p => View.cover_of_tiled [⟨r5_3, p⟩] S2000x64.size (by rfl))
    (fun d => (Dat.before_in_eq_fetched _ 0 rfl (fun _ => rfl) (fun _ _ _ => rfl) (fun _ => rfl) t d).trans rfl)
    (fun d => (Dat.before_in_eq_fetched _ 1 rfl (fun _ => rfl) (fun _ _ _ => rfl) (fun _ => rfl) t d).trans rfl)
    (fun d => (Dat.before_in_eq_fetched _ 2 rfl (fun _ => rfl) (fun _ _ _ => rfl) (fun _ => rfl) t d).trans rfl)
    rfl rfl (by dsimp only [dat5]; rfl)

end Cert.Kernel.Body

end
-- ==== Proof.Kernel.Vals.lean ====
import proofs.«414254_j90761248899606_1_alg».proof.Proof.KernelRegions
import proofs.«414254_j90761248899606_1_alg».proof.Proof.Kernel.Region0
import proofs.«414254_j90761248899606_1_alg».proof.Proof.Kernel.Region1
import proofs.«414254_j90761248899606_1_alg».proof.Proof.Kernel.Region2
import proofs.«414254_j90761248899606_1_alg».proof.Proof.Kernel.Region3
import proofs.«414254_j90761248899606_1_alg».proof.Proof.Kernel.Region4
import proofs.«414254_j90761248899606_1_alg».proof.Proof.Kernel.Region5

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Kernel.Gen Cert.Kernel.GenP

variable {F : FTy → Type} [FloatOps F]

local notation "𝕄" => MT nD τ sig Unit (Elt F) ℕ (UR sig nD τ) ℕ

variable (m : (ℓ : Loc nD τ sig) → Buf (Elt F) ℓ)

abbrev VR (W : Dev nD → Valuation τ sig (Elt F)) : (c : Dev nD) → (b : Ref sig .tc) → Buf (Elt F) ((c : Thread nD τ).loc b) := fun c b => W c b

def W0 (c : Dev nD) : Valuation τ sig (Elt F) := fun b => m (c, b)

def W1 (c : Dev nD) : Valuation τ sig (Elt F) := StableHlo.after hostOps0 (W0 m c)

def o2 (c : Dev nD) : Buf (Elt F) ((c : Thread nD τ).loc main_v8) := (dat0 (VR (W1 m)) c).arrAt 3 cfg0.N

def W2 (c : Dev nD) : Valuation τ sig (Elt F) := Function.update (W1 m c) main_v8 (o2 m c)

def W3 (c : Dev nD) : Valuation τ sig (Elt F) := StableHlo.after hostOps1 (W2 m c)

def W4 (c : Dev nD) : Valuation τ sig (Elt F) := StableHlo.after hostOps1_1 (W3 m c)

def W5 (c : Dev nD) : Valuation τ sig (Elt F) := StableHlo.after hostOps1_2 (W4 m c)

def W6 (c : Dev nD) : Valuation τ sig (Elt F) := StableHlo.after hostOps1_3 (W5 m c)

def o7 (c : Dev nD) : Buf (Elt F) ((c : Thread nD τ).loc main_v16) := (dat1 (VR (W6 m)) c).arrAt 3 cfg1.N

def W7 (c : Dev nD) : Valuation τ sig (Elt F) := Function.update (W6 m c) main_v16 (o7 m c)

def W8 (c : Dev nD) : Valuation τ sig (Elt F) := StableHlo.after hostOps2 (W7 m c)

def o9 (c : Dev nD) : Buf (Elt F) ((c : Thread nD τ).loc main_v28) := (dat2 (VR (W8 m)) c).arrAt 3 cfg2.N

def W9 (c : Dev nD) : Valuation τ sig (Elt F) := Function.update (W8 m c) main_v28 (o9 m c)

def W10 (c : Dev nD) : Valuation τ sig (Elt F) := StableHlo.after hostOps3 (W9 m c)

def W11 (c : Dev nD) : Valuation τ sig (Elt F) := StableHlo.after hostOps3_1 (W10 m c)

def W12 (c : Dev nD) : Valuation τ sig (Elt F) := StableHlo.after hostOps3_2 (W11 m c)

def W13 (c : Dev nD) : Valuation τ sig (Elt F) := StableHlo.after hostOps3_3 (W12 m c)

def o14 (c : Dev nD) : Buf (Elt F) ((c : Thread nD τ).loc main_v36) := (dat3 (VR (W13 m)) c).arrAt 3 cfg3.N

def W14 (c : Dev nD) : Valuation τ sig (Elt F) := Function.update (W13 m c) main_v36 (o14 m c)

def W15 (c : Dev nD) : Valuation τ sig (Elt F) := StableHlo.after hostOps4 (W14 m c)

def o16 (c : Dev nD) : Buf (Elt F) ((c : Thread nD τ).loc main_v48) := (dat4 (VR (W15 m)) c).arrAt 3 cfg4.N

def W16 (c : Dev nD) : Valuation τ sig (Elt F) := Function.update (W15 m c) main_v48 (o16 m c)

def W17 (c : Dev nD) : Valuation τ sig (Elt F) := StableHlo.after hostOps5 (W16 m c)

def W18 (c : Dev nD) : Valuation τ sig (Elt F) := StableHlo.after hostOps5_1 (W17 m c)

def W19 (c : Dev nD) : Valuation τ sig (Elt F) := StableHlo.after hostOps5_2 (W18 m c)

def W20 (c : Dev nD) : Valuation τ sig (Elt F) := StableHlo.after hostOps5_3 (W19 m c)

def o21 (c : Dev nD) : Buf (Elt F) ((c : Thread nD τ).loc main_v56) := (dat5 (VR (W20 m)) c).arrAt 3 cfg5.N

def W21 (c : Dev nD) : Valuation τ sig (Elt F) := Function.update (W20 m c) main_v56 (o21 m c)

def W22 (c : Dev nD) : Valuation τ sig (Elt F) := StableHlo.after hostOps6 (W21 m c)

end Cert.Kernel.Body

end
-- ==== Proof.Kernel.Run.lean ====
import proofs.«414254_j90761248899606_1_alg».proof.Defs
import proofs.«414254_j90761248899606_1_alg».proof.Proof.Gen.Pre_finite_inputs
import proofs.«414254_j90761248899606_1_alg».proof.Proof.Kernel.Vals

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Kernel.Gen Cert.Kernel.GenP

variable {F : FTy → Type} [FloatOps F]

local notation "𝕄" => MT nD τ sig Unit (Elt F) ℕ (UR sig nD τ) ℕ

variable (m : (ℓ : Loc nD τ sig) → Buf (Elt F) ℓ)

def theOuts : Outs (F := F) := fun J r c => match J with
  | 2 => W2 m c r
  | 7 => W7 m c r
  | 9 => W9 m c r
  | 14 => W14 m c r
  | 16 => W16 m c r
  | 21 => W21 m c r
  | _ => W0 m c r

-- Replacing one buffer of a valuation leaves every other buffer as it was.
theorem upd_other (W : Valuation τ sig (Elt F)) (o r : Ref sig .tc) (v) (h : r ≠ o) : Function.update W o v r = W r :=
  Function.update_of_ne (StableHlo.devRef_ne_of_ne h) _ _

theorem upd_same (W : Valuation τ sig (Elt F)) (o : Ref sig .tc) (v) : Function.update W o v o = v := Function.update_self _ _ _

theorem passes0 (c : Dev nD) (r : Ref sig .tc) (h : r ≠ main_v8) : W2 m c r = W1 m c r := upd_other _ _ _ _ h
theorem out0_eq (c : Dev nD) : W2 m c main_v8 = o2 m c := upd_same _ _ _
theorem passes1 (c : Dev nD) (r : Ref sig .tc) (h : r ≠ main_v16) : W7 m c r = W6 m c r := upd_other _ _ _ _ h
theorem out1_eq (c : Dev nD) : W7 m c main_v16 = o7 m c := upd_same _ _ _
theorem passes2 (c : Dev nD) (r : Ref sig .tc) (h : r ≠ main_v28) : W9 m c r = W8 m c r := upd_other _ _ _ _ h
theorem out2_eq (c : Dev nD) : W9 m c main_v28 = o9 m c := upd_same _ _ _
theorem passes3 (c : Dev nD) (r : Ref sig .tc) (h : r ≠ main_v36) : W14 m c r = W13 m c r := upd_other _ _ _ _ h
theorem out3_eq (c : Dev nD) : W14 m c main_v36 = o14 m c := upd_same _ _ _
theorem passes4 (c : Dev nD) (r : Ref sig .tc) (h : r ≠ main_v48) : W16 m c r = W15 m c r := upd_other _ _ _ _ h
theorem out4_eq (c : Dev nD) : W16 m c main_v48 = o16 m c := upd_same _ _ _
theorem passes5 (c : Dev nD) (r : Ref sig .tc) (h : r ≠ main_v56) : W21 m c r = W20 m c r := upd_other _ _ _ _ h
theorem out5_eq (c : Dev nD) : W21 m c main_v56 = o21 m c := upd_same _ _ _

theorem VW1 (c : Dev nD) : V1 m c = W1 m c := rfl
theorem VW2 (c : Dev nD) : V2 m (theOuts m) c = W2 m c := by
  show Function.update (V1 m c) main_v8 (W2 m c main_v8) = _
  rw [VW1, out0_eq]; rfl
theorem VW3 (c : Dev nD) : V3 m (theOuts m) c = W3 m c := congrArg (StableHlo.after hostOps1) (VW2 m c)
theorem VW4 (c : Dev nD) : V4 m (theOuts m) c = W4 m c := congrArg (StableHlo.after hostOps1_1) (VW3 m c)
theorem VW5 (c : Dev nD) : V5 m (theOuts m) c = W5 m c := congrArg (StableHlo.after hostOps1_2) (VW4 m c)
theorem VW6 (c : Dev nD) : V6 m (theOuts m) c = W6 m c := congrArg (StableHlo.after hostOps1_3) (VW5 m c)
theorem VW7 (c : Dev nD) : V7 m (theOuts m) c = W7 m c := by
  show Function.update (V6 m (theOuts m) c) main_v16 (W7 m c main_v16) = _
  rw [VW6, out1_eq]; rfl
theorem VW8 (c : Dev nD) : V8 m (theOuts m) c = W8 m c := congrArg (StableHlo.after hostOps2) (VW7 m c)
theorem VW9 (c : Dev nD) : V9 m (theOuts m) c = W9 m c := by
  show Function.update (V8 m (theOuts m) c) main_v28 (W9 m c main_v28) = _
  rw [VW8, out2_eq]; rfl
theorem VW10 (c : Dev nD) : V10 m (theOuts m) c = W10 m c := congrArg (StableHlo.after hostOps3) (VW9 m c)
theorem VW11 (c : Dev nD) : V11 m (theOuts m) c = W11 m c := congrArg (StableHlo.after hostOps3_1) (VW10 m c)
theorem VW12 (c : Dev nD) : V12 m (theOuts m) c = W12 m c := congrArg (StableHlo.after hostOps3_2) (VW11 m c)
theorem VW13 (c : Dev nD) : V13 m (theOuts m) c = W13 m c := congrArg (StableHlo.after hostOps3_3) (VW12 m c)
theorem VW14 (c : Dev nD) : V14 m (theOuts m) c = W14 m c := by
  show Function.update (V13 m (theOuts m) c) main_v36 (W14 m c main_v36) = _
  rw [VW13, out3_eq]; rfl
theorem VW15 (c : Dev nD) : V15 m (theOuts m) c = W15 m c := congrArg (StableHlo.after hostOps4) (VW14 m c)
theorem VW16 (c : Dev nD) : V16 m (theOuts m) c = W16 m c := by
  show Function.update (V15 m (theOuts m) c) main_v48 (W16 m c main_v48) = _
  rw [VW15, out4_eq]; rfl
theorem VW17 (c : Dev nD) : V17 m (theOuts m) c = W17 m c := congrArg (StableHlo.after hostOps5) (VW16 m c)
theorem VW18 (c : Dev nD) : V18 m (theOuts m) c = W18 m c := congrArg (StableHlo.after hostOps5_1) (VW17 m c)
theorem VW19 (c : Dev nD) : V19 m (theOuts m) c = W19 m c := congrArg (StableHlo.after hostOps5_2) (VW18 m c)
theorem VW20 (c : Dev nD) : V20 m (theOuts m) c = W20 m c := congrArg (StableHlo.after hostOps5_3) (VW19 m c)
theorem VW21 (c : Dev nD) : V21 m (theOuts m) c = W21 m c := by
  show Function.update (V20 m (theOuts m) c) main_v56 (W21 m c main_v56) = _
  rw [VW20, out5_eq]; rfl

def theDats : (p : Fin 6) → (c : Dev nD) → Dat τ (Elt F) Unit ℕ (UR sig nD τ) ℕ (cfgs p) c
  | ⟨0, _⟩ => fun c => dat0 (VR (W1 m)) c
  | ⟨1, _⟩ => fun c => dat1 (VR (W6 m)) c
  | ⟨2, _⟩ => fun c => dat2 (VR (W8 m)) c
  | ⟨3, _⟩ => fun c => dat3 (VR (W13 m)) c
  | ⟨4, _⟩ => fun c => dat4 (VR (W15 m)) c
  | ⟨5, _⟩ => fun c => dat5 (VR (W20 m)) c

abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)

set_option backward.isDefEq.respectTransparency.types false in
-- A region takes its arrays out of the buffers held at `Wi` and puts them back, held at `Wo`, on leaving.
def mkReg (p : Fin 6) (lf : Pipeline.LaunchFacts (nD := nD) (τ := τ) cfgs p) (Wi Wo : Dev nD → Valuation τ sig (Elt F))
    (hbody : ∀ c, BodyObligation (theDats m p c) (defs₀ (F := F)) 𝒱₀ () Set.univ)
    (hq : ∀ c w, (theDats m p c).q w = fullShare) (howed : ∀ c t, (theDats m p c).owed t = 0)
    (hrec : ∀ c t, (theDats m p c).recorded t = Set.univ)
    (hΦ : ∀ c t, (theDats m p c).Φ t = Pipeline.ΦA (cfgs p).spec c)
    (hA : ∀ c w, (theDats m p c).A w = VR Wi c (Pipeline.arrRef (cfgs p).spec w))
    (hF : ∀ c w, (theDats m p c).arrAt w (cfgs p).N = VR Wo c (Pipeline.arrRef (cfgs p).spec w))
    (hrest : ∀ c b, b ∉ Finset.univ.image (Pipeline.arrRef (cfgs p).spec) → VR Wo c b = VR Wi c b) :
    RegionSeg (pcfgs (F := F)) adm (theDats m) () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Wi c) ∗ R c)
  post c := iprop(StableHlo.held (c : Thread nD τ) (Pipeline.ucRefs τ sig) (Wo c) ∗ R c)
  X c := iprop(∃ r, prngReg c r)
  Y c := iprop(∃ r, prngReg c r)
  Z c := Pipeline.unscopedRest (Ix := Unit) (Name := ℕ) (U := UR sig nD τ) (Lvl := ℕ) (cfgs p).spec c (VR Wi c)
  hentry c := by
    rw [Pipeline.ownSems0_none]
    have hsplit := Pipeline.arrays_of_unscopedBufs (p := p) (pcfgs (F := F)) adm (theDats m) lf.win lf.arr_whole c
      ((theDats m p c).share_full (hq c)) (VR Wi c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [howed c 0]
      icases HO with ⟨%W, HO⟩; iexists W; isplitr; · ipureintro; exact fun _ _ => Or.inl (by rw [hrec c 0]; trivial)
      iexact HO
    isplitl [Hp]; · iexact Hp
    iexact Hrest
  hin c := by
    rw [hΦ c 0]; unfold Pipeline.ΦA
    iintro ⟨Hp, -, Hr⟩
    isplitl [Hr]; · iexact Hr
    iexact Hp
  hout c := by
    rw [Pipeline.ownSems0_none, hΦ c (Fin.last _)]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (theDats m) ((theDats m p c).share_full (hq c))
      (VR Wi c) (VR Wo c) ((theDats m p c).arrAt · (cfgs p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [howed c _]
    icases HO with ⟨%W, -, HO⟩; iexists W; iexact HO

set_option maxHeartbeats 1000000 in
theorem hF0 (c : Dev nD) (w : Fin cfg0.W) : (dat0 (VR (W1 m)) c).arrAt w cfg0.N = VR (W2 m) c (Pipeline.arrRef spec0 w) := by
  match w with
  | ⟨3, _⟩ => exact (out0_eq m c).symm
  | ⟨0, _⟩ => exact ((dat0 (VR (W1 m)) c).arrAt_in 0 rfl _).trans ((A_eq0 (VR (W1 m)) c 0).trans (passes0 m c _ (by decide)).symm)
  | ⟨1, _⟩ => exact ((dat0 (VR (W1 m)) c).arrAt_in 1 rfl _).trans ((A_eq0 (VR (W1 m)) c 1).trans (passes0 m c _ (by decide)).symm)
  | ⟨2, _⟩ => exact ((dat0 (VR (W1 m)) c).arrAt_in 2 rfl _).trans ((A_eq0 (VR (W1 m)) c 2).trans (passes0 m c _ (by decide)).symm)
theorem hrest0 (c : Dev nD) (b : Ref sig .tc) (hb : b ∉ Finset.univ.image (Pipeline.arrRef spec0)) : VR (W2 m) c b = VR (W1 m) c b :=
  passes0 m c b fun e => hb (Finset.mem_image.mpr ⟨3, Finset.mem_univ _, e.symm⟩)
def reg0 : RegionSeg (pcfgs (F := F)) adm (theDats m) () defs₀ 𝒱₀ L lv 0 :=
  mkReg m 0 launch0 (W1 m) (W2 m) (fun c => body_obligation0 (VR (W1 m)) c) (fun _ _ => rfl) (fun _ _ => rfl) (fun _ _ => rfl)
    (fun _ _ => rfl) (fun _ _ => rfl) (hF0 m) (hrest0 m)

set_option maxHeartbeats 1000000 in
theorem hF1 (c : Dev nD) (w : Fin cfg1.W) : (dat1 (VR (W6 m)) c).arrAt w cfg1.N = VR (W7 m) c (Pipeline.arrRef spec1 w) := by
  match w with
  | ⟨3, _⟩ => exact (out1_eq m c).symm
  | ⟨0, _⟩ => exact ((dat1 (VR (W6 m)) c).arrAt_in 0 rfl _).trans ((A_eq1 (VR (W6 m)) c 0).trans (passes1 m c _ (by decide)).symm)
  | ⟨1, _⟩ => exact ((dat1 (VR (W6 m)) c).arrAt_in 1 rfl _).trans ((A_eq1 (VR (W6 m)) c 1).trans (passes1 m c _ (by decide)).symm)
  | ⟨2, _⟩ => exact ((dat1 (VR (W6 m)) c).arrAt_in 2 rfl _).trans ((A_eq1 (VR (W6 m)) c 2).trans (passes1 m c _ (by decide)).symm)
theorem hrest1 (c : Dev nD) (b : Ref sig .tc) (hb : b ∉ Finset.univ.image (Pipeline.arrRef spec1)) : VR (W7 m) c b = VR (W6 m) c b :=
  passes1 m c b fun e => hb (Finset.mem_image.mpr ⟨3, Finset.mem_univ _, e.symm⟩)
def reg1 : RegionSeg (pcfgs (F := F)) adm (theDats m) () defs₀ 𝒱₀ L lv 1 :=
  mkReg m 1 launch1 (W6 m) (W7 m) (fun c => body_obligation1 (VR (W6 m)) c) (fun _ _ => rfl) (fun _ _ => rfl) (fun _ _ => rfl)
    (fun _ _ => rfl) (fun _ _ => rfl) (hF1 m) (hrest1 m)

set_option maxHeartbeats 1000000 in
theorem hF2 (c : Dev nD) (w : Fin cfg2.W) : (dat2 (VR (W8 m)) c).arrAt w cfg2.N = VR (W9 m) c (Pipeline.arrRef spec2 w) := by
  match w with
  | ⟨3, _⟩ => exact (out2_eq m c).symm
  | ⟨0, _⟩ => exact ((dat2 (VR (W8 m)) c).arrAt_in 0 rfl _).trans ((A_eq2 (VR (W8 m)) c 0).trans (passes2 m c _ (by decide)).symm)
  | ⟨1, _⟩ => exact ((dat2 (VR (W8 m)) c).arrAt_in 1 rfl _).trans ((A_eq2 (VR (W8 m)) c 1).trans (passes2 m c _ (by decide)).symm)
  | ⟨2, _⟩ => exact ((dat2 (VR (W8 m)) c).arrAt_in 2 rfl _).trans ((A_eq2 (VR (W8 m)) c 2).trans (passes2 m c _ (by decide)).symm)
theorem hrest2 (c : Dev nD) (b : Ref sig .tc) (hb : b ∉ Finset.univ.image (Pipeline.arrRef spec2)) : VR (W9 m) c b = VR (W8 m) c b :=
  passes2 m c b fun e => hb (Finset.mem_image.mpr ⟨3, Finset.mem_univ _, e.symm⟩)
def reg2 : RegionSeg (pcfgs (F := F)) adm (theDats m) () defs₀ 𝒱₀ L lv 2 :=
  mkReg m 2 launch2 (W8 m) (W9 m) (fun c => body_obligation2 (VR (W8 m)) c) (fun _ _ => rfl) (fun _ _ => rfl) (fun _ _ => rfl)
    (fun _ _ => rfl) (fun _ _ => rfl) (hF2 m) (hrest2 m)

set_option maxHeartbeats 1000000 in
theorem hF3 (c : Dev nD) (w : Fin cfg3.W) : (dat3 (VR (W13 m)) c).arrAt w cfg3.N = VR (W14 m) c (Pipeline.arrRef spec3 w) := by
  match w with
  | ⟨3, _⟩ => exact (out3_eq m c).symm
  | ⟨0, _⟩ => exact ((dat3 (VR (W13 m)) c).arrAt_in 0 rfl _).trans ((A_eq3 (VR (W13 m)) c 0).trans (passes3 m c _ (by decide)).symm)
  | ⟨1, _⟩ => exact ((dat3 (VR (W13 m)) c).arrAt_in 1 rfl _).trans ((A_eq3 (VR (W13 m)) c 1).trans (passes3 m c _ (by decide)).symm)
  | ⟨2, _⟩ => exact ((dat3 (VR (W13 m)) c).arrAt_in 2 rfl _).trans ((A_eq3 (VR (W13 m)) c 2).trans (passes3 m c _ (by decide)).symm)
theorem hrest3 (c : Dev nD) (b : Ref sig .tc) (hb : b ∉ Finset.univ.image (Pipeline.arrRef spec3)) : VR (W14 m) c b = VR (W13 m) c b :=
  passes3 m c b fun e => hb (Finset.mem_image.mpr ⟨3, Finset.mem_univ _, e.symm⟩)
def reg3 : RegionSeg (pcfgs (F := F)) adm (theDats m) () defs₀ 𝒱₀ L lv 3 :=
  mkReg m 3 launch3 (W13 m) (W14 m) (fun c => body_obligation3 (VR (W13 m)) c) (fun _ _ => rfl) (fun _ _ => rfl) (fun _ _ => rfl)
    (fun _ _ => rfl) (fun _ _ => rfl) (hF3 m) (hrest3 m)

set_option maxHeartbeats 1000000 in
theorem hF4 (c : Dev nD) (w : Fin cfg4.W) : (dat4 (VR (W15 m)) c).arrAt w cfg4.N = VR (W16 m) c (Pipeline.arrRef spec4 w) := by
  match w with
  | ⟨3, _⟩ => exact (out4_eq m c).symm
  | ⟨0, _⟩ => exact ((dat4 (VR (W15 m)) c).arrAt_in 0 rfl _).trans ((A_eq4 (VR (W15 m)) c 0).trans (passes4 m c _ (by decide)).symm)
  | ⟨1, _⟩ => exact ((dat4 (VR (W15 m)) c).arrAt_in 1 rfl _).trans ((A_eq4 (VR (W15 m)) c 1).trans (passes4 m c _ (by decide)).symm)
  | ⟨2, _⟩ => exact ((dat4 (VR (W15 m)) c).arrAt_in 2 rfl _).trans ((A_eq4 (VR (W15 m)) c 2).trans (passes4 m c _ (by decide)).symm)
theorem hrest4 (c : Dev nD) (b : Ref sig .tc) (hb : b ∉ Finset.univ.image (Pipeline.arrRef spec4)) : VR (W16 m) c b = VR (W15 m) c b :=
  passes4 m c b fun e => hb (Finset.mem_image.mpr ⟨3, Finset.mem_univ _, e.symm⟩)
def reg4 : RegionSeg (pcfgs (F := F)) adm (theDats m) () defs₀ 𝒱₀ L lv 4 :=
  mkReg m 4 launch4 (W15 m) (W16 m) (fun c => body_obligation4 (VR (W15 m)) c) (fun _ _ => rfl) (fun _ _ => rfl) (fun _ _ => rfl)
    (fun _ _ => rfl) (fun _ _ => rfl) (hF4 m) (hrest4 m)

set_option maxHeartbeats 1000000 in
theorem hF5 (c : Dev nD) (w : Fin cfg5.W) : (dat5 (VR (W20 m)) c).arrAt w cfg5.N = VR (W21 m) c (Pipeline.arrRef spec5 w) := by
  match w with
  | ⟨3, _⟩ => exact (out5_eq m c).symm
  | ⟨0, _⟩ => exact ((dat5 (VR (W20 m)) c).arrAt_in 0 rfl _).trans ((A_eq5 (VR (W20 m)) c 0).trans (passes5 m c _ (by decide)).symm)
  | ⟨1, _⟩ => exact ((dat5 (VR (W20 m)) c).arrAt_in 1 rfl _).trans ((A_eq5 (VR (W20 m)) c 1).trans (passes5 m c _ (by decide)).symm)
  | ⟨2, _⟩ => exact ((dat5 (VR (W20 m)) c).arrAt_in 2 rfl _).trans ((A_eq5 (VR (W20 m)) c 2).trans (passes5 m c _ (by decide)).symm)
theorem hrest5 (c : Dev nD) (b : Ref sig .tc) (hb : b ∉ Finset.univ.image (Pipeline.arrRef spec5)) : VR (W21 m) c b = VR (W20 m) c b :=
  passes5 m c b fun e => hb (Finset.mem_image.mpr ⟨3, Finset.mem_univ _, e.symm⟩)
def reg5 : RegionSeg (pcfgs (F := F)) adm (theDats m) () defs₀ 𝒱₀ L lv 5 :=
  mkReg m 5 launch5 (W20 m) (W21 m) (fun c => body_obligation5 (VR (W20 m)) c) (fun _ _ => rfl) (fun _ _ => rfl) (fun _ _ => rfl)
    (fun _ _ => rfl) (fun _ _ => rfl) (hF5 m) (hrest5 m)

theorem hu₀ : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ fun _ : Dev nD => (iprop(emp) : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

theorem hE0 (ρ : Dev nD → PrngReg) : iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (iprop(emp) : sProp 𝕄))) ∗ levAts L lv)
    ⊢ (|={Set.univ}=> bigSep Finset.univ (fun c : Dev nD => R (F := F) c) : sProp 𝕄) := by
  refine Pipeline.initEach L lv fun c => ?_
  iintro ⟨⟨-, HO, -, Hp, -⟩, -⟩
  imodintro
  isplitl [Hp]; · iexists _; iexact Hp
  iexists ∅; iexact HO

theorem hE6 (c : Dev nD) : R (F := F) c ⊢ (iprop(∃ W, owes (c : Thread nD τ) (0 : CellTallies nD τ sig Unit) W) : sProp 𝕄) := by
  iintro ⟨-, H⟩; iexact H

set_option backward.isDefEq.respectTransparency.types false in
-- Every weakly fair execution of @main terminates, nothing faulting, with every argument as launched.
theorem frame : Cert.frame_Kernel := fun m ρ _ =>
  frame_cond (F := Bits) m emb₁ () 𝒱₀ L lv (fun _ _ => rfl) ρ (theOuts m) (theDats m) 0 (fun _ => iprop(emp))
    (initOf (Pipeline.cells cfgs cellOf_inj) (Pipeline.launchToks cfgs cellOf_inj)) (hu₀ (F := Bits)) (fun _ c => R c) (hE0 ρ) (fun c => hE6 c)
    (reg0 m) (fun c => by rw [VW1]; exact .rfl) (fun c => by rw [VW2]; exact .rfl) (reg1 m) (fun c => by rw [VW6]; exact .rfl) (fun c => by rw [VW7]; exact .rfl) (reg2 m) (fun c => by rw [VW8]; exact .rfl) (fun c => by rw [VW9]; exact .rfl) (reg3 m) (fun c => by rw [VW13]; exact .rfl) (fun c => by rw [VW14]; exact .rfl) (reg4 m) (fun c => by rw [VW15]; exact .rfl) (fun c => by rw [VW16]; exact .rfl) (reg5 m) (fun c => by rw [VW20]; exact .rfl) (fun c => by rw [VW21]; exact .rfl)

end Cert.Kernel.Body

end
-- ==== Proof.KernelIdeal.RunCond.lean ====
import proofs.«414254_j90761248899606_1_alg».proof.Proof.KernelIdealRegions

set_option maxRecDepth 1912

noncomputable section

namespace Cert.KernelIdeal.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal.Gen Cert.KernelIdeal.GenP

variable {F : FTy → Type} [FloatOps F]

variable (m : (ℓ : Loc nD τ sig) → Buf (Elt F) ℓ)

-- Every argument's buffer holds what it held at launch.
abbrev Kept (s : MemSt nD τ sig (Elt F)) (c : Dev nD) : Prop :=
  s.mem ((c.tc : Thread nD τ).loc main_arg0) = m ((c.tc : Thread nD τ).loc main_arg0)
  ∧ s.mem ((c.tc : Thread nD τ).loc main_arg1) = m ((c.tc : Thread nD τ).loc main_arg1)
  ∧ s.mem ((c.tc : Thread nD τ).loc main_arg2) = m ((c.tc : Thread nD τ).loc main_arg2)
  ∧ s.mem ((c.tc : Thread nD τ).loc main_arg3) = m ((c.tc : Thread nD τ).loc main_arg3)
  ∧ s.mem ((c.tc : Thread nD τ).loc main_arg4) = m ((c.tc : Thread nD τ).loc main_arg4)
  ∧ s.mem ((c.tc : Thread nD τ).loc main_arg5) = m ((c.tc : Thread nD τ).loc main_arg5)
  ∧ s.mem ((c.tc : Thread nD τ).loc main_arg6) = m ((c.tc : Thread nD τ).loc main_arg6)
  ∧ s.mem ((c.tc : Thread nD τ).loc main_arg7) = m ((c.tc : Thread nD τ).loc main_arg7)
  ∧ s.mem ((c.tc : Thread nD τ).loc main_arg8) = m ((c.tc : Thread nD τ).loc main_arg8)
  ∧ s.mem ((c.tc : Thread nD τ).loc main_arg9) = m ((c.tc : Thread nD τ).loc main_arg9)
  ∧ s.mem ((c.tc : Thread nD τ).loc main_arg10) = m ((c.tc : Thread nD τ).loc main_arg10)
  ∧ s.mem ((c.tc : Thread nD τ).loc main_arg11) = m ((c.tc : Thread nD τ).loc main_arg11)
  ∧ s.mem ((c.tc : Thread nD τ).loc main_arg12) = m ((c.tc : Thread nD τ).loc main_arg12)
  ∧ s.mem ((c.tc : Thread nD τ).loc main_arg13) = m ((c.tc : Thread nD τ).loc main_arg13)
  ∧ s.mem ((c.tc : Thread nD τ).loc main_arg14) = m ((c.tc : Thread nD τ).loc main_arg14)
  ∧ s.mem ((c.tc : Thread nD τ).loc main_arg15) = m ((c.tc : Thread nD τ).loc main_arg15)
  ∧ s.mem ((c.tc : Thread nD τ).loc main_arg16) = m ((c.tc : Thread nD τ).loc main_arg16)
  ∧ s.mem ((c.tc : Thread nD τ).loc main_arg17) = m ((c.tc : Thread nD τ).loc main_arg17)
  ∧ s.mem ((c.tc : Thread nD τ).loc main_arg18) = m ((c.tc : Thread nD τ).loc main_arg18)
  ∧ s.mem ((c.tc : Thread nD τ).loc main_arg19) = m ((c.tc : Thread nD τ).loc main_arg19)
  ∧ s.mem ((c.tc : Thread nD τ).loc main_arg20) = m ((c.tc : Thread nD τ).loc main_arg20)
  ∧ s.mem ((c.tc : Thread nD τ).loc main_arg21) = m ((c.tc : Thread nD τ).loc main_arg21)
  ∧ s.mem ((c.tc : Thread nD τ).loc main_arg22) = m ((c.tc : Thread nD τ).loc main_arg22)
  ∧ s.mem ((c.tc : Thread nD τ).loc main_arg23) = m ((c.tc : Thread nD τ).loc main_arg23)
  ∧ s.mem ((c.tc : Thread nD τ).loc main_arg24) = m ((c.tc : Thread nD τ).loc main_arg24)
  ∧ s.mem ((c.tc : Thread nD τ).loc main_arg25) = m ((c.tc : Thread nD τ).loc main_arg25)

set_option backward.isDefEq.respectTransparency.types false in
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 6) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 7 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE6 : ∀ c : Dev nD, E 6 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V6 m outs c) ∗ E 1 c) ⊢ R1.pre c)
    (hpost1 : ∀ c : Dev nD, R1.post c ⊢ iprop(StableHlo.held (c : Thread nD τ) (Pipeline.ucRefs τ sig) (V7 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V8 m outs c) ∗ E 2 c) ⊢ R2.pre c)
    (hpost2 : ∀ c : Dev nD, R2.post c ⊢ iprop(StableHlo.held (c : Thread nD τ) (Pipeline.ucRefs τ sig) (V9 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V13 m outs c) ∗ E 3 c) ⊢ R3.pre c)
    (hpost3 : ∀ c : Dev nD, R3.post c ⊢ iprop(StableHlo.held (c : Thread nD τ) (Pipeline.ucRefs τ sig) (V14 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V15 m outs c) ∗ E 4 c) ⊢ R4.pre c)
    (hpost4 : ∀ c : Dev nD, R4.post c ⊢ iprop(StableHlo.held (c : Thread nD τ) (Pipeline.ucRefs τ sig) (V16 m outs c) ∗ E 5 c))
    (R5 : RegionSeg (pcfgs (F := F)) adm pdats ι defs₀ 𝒱₀ L lv 5)
    (hpre5 : ∀ c : Dev nD, iprop(StableHlo.held (c : Thread nD τ) (Pipeline.ucRefs τ sig) (V20 m outs c) ∗ E 5 c) ⊢ R5.pre c)
    (hpost5 : ∀ c : Dev nD, R5.post c ⊢ iprop(StableHlo.held (c : Thread nD τ) (Pipeline.ucRefs τ sig) (V21 m outs c) ∗ E 6 c)) :
    θ_run defs (onTc (τ := τ) (main (F := F))) ⟨m, fun _ => 0, ρ⟩ (fun r => ∀ c : Dev nD,
      r.2.mem ((c.tc : Thread nD τ).loc main_v74) = V22 m outs c main_v74
      ∧ Kept m r.2 c) := by
  refine Pipeline.θ_run_regions_kit_dev (pcfgs (F := F)) adm pdats ι cellOf_inj EP defs₀ 𝒱₀ L lv m ρ main
    (segs m outs 𝒱₀ L lv E ι pdats R0 R1 R2 R3 R4 R5)
    (fun c Q => by
      rewrite [main_chain c, Seg.run_eq_chain,
        show (segs m outs 𝒱₀ L lv E ι pdats R0 R1 R2 R3 R4 R5 c).map Seg.prog = [
          StableHlo.seq hostOps0,
          Prog.lift (.customCall (Pipeline.entry 0) ()),
          StableHlo.seq hostOps1,
          StableHlo.seq hostOps1_1,
          StableHlo.seq hostOps1_2,
          StableHlo.seq hostOps1_3,
          Prog.lift (.customCall (Pipeline.entry 1) ()),
          StableHlo.seq hostOps2,
          Prog.lift (.customCall (Pipeline.entry 2) ()),
          StableHlo.seq hostOps3,
          StableHlo.seq hostOps3_1,
          StableHlo.seq hostOps3_2,
          StableHlo.seq hostOps3_3,
          Prog.lift (.customCall (Pipeline.entry 3) ()),
          StableHlo.seq hostOps4,
          Prog.lift (.customCall (Pipeline.entry 4) ()),
          StableHlo.seq hostOps5,
          StableHlo.seq hostOps5_1,
          StableHlo.seq hostOps5_2,
          StableHlo.seq hostOps5_3,
          Prog.lift (.customCall (Pipeline.entry 5) ()),
          StableHlo.seq hostOps6 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V22 m outs c))
    (hch := fun c => ⟨.rfl, hpre0 c, hpost0 c, .rfl, .rfl, .rfl, hpre1 c, hpost1 c, hpre2 c, hpost2 c, .rfl, .rfl, .rfl, hpre3 c, hpost3 c, hpre4 c, hpost4 c, .rfl, .rfl, .rfl, hpre5 c, hpost5 c, sep_mono .rfl (hE6 c)⟩)
    (hinit := ?_) (QY := fun c s => s.mem ((c.tc : Thread nD τ).loc main_v74) = V22 m outs c main_v74  ∧ Kept m s c)
    (hfin := fun c s' => ?_) (hQ := fun _ h => h)
  ·
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  ·
    unfold StableHlo.held
    iintro ⟨Hh, HSI⟩
    ihave Hr := (pointsTo_read_all (Pipeline.ucRefs τ sig) (fun b => ((c : Thread nD τ).1, b)) (V22 m outs c) s') $$ [Hh HSI]
    · isplitl [Hh] <;> iassumption
    icases Hr with ⟨%h, HSI⟩
    imodintro
    isplitr
    · ipureintro
      have key : ∀ b : Ref sig .tc, ¬ (Proc.devRef (τ := τ) .tc b).isScoped → s'.mem.mem ((c.tc : Thread nD τ).loc b) = V22 m outs c b :=
        fun b hb => h _ (Finset.mem_filter.mpr ⟨StableHlo.devRef_mem_tcRefs b, hb⟩)
      exact ⟨key main_v74 (by decide),
        (key main_arg0 (by decide)).trans (V22_main_arg0 m outs c),
        (key main_arg1 (by decide)).trans (V22_main_arg1 m outs c),
        (key main_arg2 (by decide)).trans (V22_main_arg2 m outs c),
        (key main_arg3 (by decide)).trans (V22_main_arg3 m outs c),
        (key main_arg4 (by decide)).trans (V22_main_arg4 m outs c),
        (key main_arg5 (by decide)).trans (V22_main_arg5 m outs c),
        (key main_arg6 (by decide)).trans (V22_main_arg6 m outs c),
        (key main_arg7 (by decide)).trans (V22_main_arg7 m outs c),
        (key main_arg8 (by decide)).trans (V22_main_arg8 m outs c),
        (key main_arg9 (by decide)).trans (V22_main_arg9 m outs c),
        (key main_arg10 (by decide)).trans (V22_main_arg10 m outs c),
        (key main_arg11 (by decide)).trans (V22_main_arg11 m outs c),
        (key main_arg12 (by decide)).trans (V22_main_arg12 m outs c),
        (key main_arg13 (by decide)).trans (V22_main_arg13 m outs c),
        (key main_arg14 (by decide)).trans (V22_main_arg14 m outs c),
        (key main_arg15 (by decide)).trans (V22_main_arg15 m outs c),
        (key main_arg16 (by decide)).trans (V22_main_arg16 m outs c),
        (key main_arg17 (by decide)).trans (V22_main_arg17 m outs c),
        (key main_arg18 (by decide)).trans (V22_main_arg18 m outs c),
        (key main_arg19 (by decide)).trans (V22_main_arg19 m outs c),
        (key main_arg20 (by decide)).trans (V22_main_arg20 m outs c),
        (key main_arg21 (by decide)).trans (V22_main_arg21 m outs c),
        (key main_arg22 (by decide)).trans (V22_main_arg22 m outs c),
        (key main_arg23 (by decide)).trans (V22_main_arg23 m outs c),
        (key main_arg24 (by decide)).trans (V22_main_arg24 m outs c),
        (key main_arg25 (by decide)).trans (V22_main_arg25 m outs c)⟩
    · iexact HSI

end Cert.KernelIdeal.Body

end
-- ==== Proof.KernelIdeal.RegionBody.lean ====
import proofs.«414254_j90761248899606_1_alg».proof.Proof.KernelIdealLaunch
import proofs.«414254_j90761248899606_1_alg».proof.Proof.Gen.KernelIdeal.Skeleton
import proofs.«414254_j90761248899606_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F] {S0 S1 S2 S3 : Shape}

local notation "𝕄" => MT nD τ sig Unit (Elt F) ℕ (UR sig nD τ) ℕ

/-- A body that loads four buffers and then stores in the fourth a function of what it loaded from the first three. -/
def loads3Store (a0 : Memref sig .tc .vmem S0 .f32) (a1 : Memref sig .tc .vmem S1 .f32) (a2 : Memref sig .tc .vmem S2 .f32)
    (a3 : Memref sig .tc .vmem S3 .f32) (r0 : Rect S0) (r1 : Rect S1) (r2 : Rect S2) (r3 : Rect S3)
    (l0 : a0.view.LoadsAt r0.toLoadRect) (l1 : a1.view.LoadsAt r1.toLoadRect) (l2 : a2.view.LoadsAt r2.toLoadRect)
    (l3 : a3.view.LoadsAt r3.toLoadRect) (hs : (a3.access r3).Stores Finset.univ)
    (pay : (r0.shape.Idx → Elt F .f32) → (r1.shape.Idx → Elt F .f32) → (r2.shape.Idx → Elt F .f32) → r3.shape.Idx → Elt F .f32) :
    Prog (TpuEff nD τ sig (Elt F) Λ₀ .tc) PUnit := do
  let v0 ← Prog.lift (.load a0 r0.toLoadRect l0)
  let v1 ← Prog.lift (.load a1 r1.toLoadRect l1)
  let v2 ← Prog.lift (.load a2 r2.toLoadRect l2)
  let _ ← Prog.lift (.load a3 r3.toLoadRect l3)
  Prog.lift (.store a3 r3 (pay v0 v1 v2) Finset.univ hs (.inl rfl))
  pure ⟨⟩

/-- The loads change nothing and the store covers the fourth buffer, so the first three are kept, the fourth holds the stored value, and whatever else is held passes through. -/
theorem loads3Store_spec (c : Dev nD) {a0 : Memref sig .tc .vmem S0 .f32} {a1 : Memref sig .tc .vmem S1 .f32}
    {a2 : Memref sig .tc .vmem S2 .f32} {a3 : Memref sig .tc .vmem S3 .f32} {r0 : Rect S0} {r1 : Rect S1} {r2 : Rect S2} {r3 : Rect S3}
    {l0 l1 l2 l3 hs pay} (hcov : ∀ p y, ∃ pc ∈ ([⟨r3, p⟩] : List (View.Piece (Elt F) S3 .f32)), y ∈ pc.1.set)
    {Φ Ω Φ' Ω' : sProp 𝕄} {D0 D1 D2 D3 : Type} {b0 : D0 → Vec F S0 .f32} {b1 : D1 → Vec F S1 .f32} {b2 : D2 → Vec F S2 .f32}
    {b3 : D3 → Vec F S3 .f32} {x0 x1 x2 y3} (h0 : ∀ d, b0 d = x0) (h1 : ∀ d, b1 d = x1) (h2 : ∀ d, b2 d = x2)
    (hΦ : Φ' = Φ) (hΩ : Ω' = Ω) (h3 : y3 = View.canon [⟨r3, pay (View.ld x0 r0) (View.ld x1 r1) (View.ld x2 r2)⟩]) :
    iprop(Φ ∗ Ω ∗ (∃ d, owns (c : Thread nD τ) a0 fullShare (b0 d)) ∗ (∃ d, owns (c : Thread nD τ) a1 fullShare (b1 d))
        ∗ (∃ d, owns (c : Thread nD τ) a2 fullShare (b2 d)) ∗ (∃ d, owns (c : Thread nD τ) a3 fullShare (b3 d)))
      ⊢ wp frame (wpE (defs₀ (F := F)) Variants.none c none) Set.univ (loads3Store a0 a1 a2 a3 r0 r1 r2 r3 l0 l1 l2 l3 hs pay) fun _ =>
        iprop(Φ' ∗ Ω' ∗ owns (c : Thread nD τ) a0 fullShare x0 ∗ owns (c : Thread nD τ) a1 fullShare x1 ∗ owns (c : Thread nD τ) a2 fullShare x2
          ∗ owns (c : Thread nD τ) a3 fullShare y3) := by
  subst hΦ hΩ h3
  simp only [h0, h1, h2]
  unfold loads3Store owns
  iintro ⟨HΦ, Ho, ⟨%_, %f0, %hf0, H0⟩, ⟨%_, %f1, %hf1, H1⟩, ⟨%_, %f2, %hf2, H2⟩, ⟨%_, %f3, -, H3⟩⟩
  subst hf0 hf1 hf2
  sl_exec
  sl_step
  iframe
  isplitl [H0]; · iexists f0; iframe; ipureintro; rfl
  isplitl [H1]; · iexists f1; iframe; ipureintro; rfl
  isplitl [H2]; · iexists f2; iframe; ipureintro; rfl
  iexists _; iframe; ipureintro
  exact View.read_writes_eq_canon _ _ _ (hcov _)

end Cert.KernelIdeal.Body

end
-- ==== Proof.KernelIdeal.Region0.lean ====
import proofs.«414254_j90761248899606_1_alg».proof.Proof.KernelIdeal.RegionBody

noncomputable section

namespace Cert.KernelIdeal.Body

open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat BodyObligation)
open Cert.KernelIdeal.Gen Cert.KernelIdeal.GenP

variable {F : FTy → Type} [FloatOps F]

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S1000x256 := Rect.unit (s := S1000x256) ![0, 0] S1000x256.size inb_S1000x256_S1000x256_0_0
abbrev r0_1 : Rect S256x1024 := Rect.unit (s := S256x1024) ![0, 0] S256x1024.size inb_S256x1024_S256x1024_0_0
abbrev r0_2 : Rect S1x1024 := Rect.unit (s := S1x1024) ![0, 0] S1x1024.size inb_S1x1024_S1x1024_0_0
abbrev r0_3 : Rect S1000x1024 := Rect.unit (s := S1000x1024) ![0, 0] S1000x1024.size inb_S1000x1024_S1000x1024_0_0

def out0_3 (x0 : Vec F S1000x256 .f32) (x1 : Vec F S256x1024 .f32) (x2 : Vec F S1x1024 .f32) : Vec F S1000x1024 .f32 :=
  View.canon [⟨r0_3, k0_pay1 (View.ld x0 r0_0) (View.ld x1 r0_1) (View.ld x2 r0_2)⟩]

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_3 (c : Dev nD) (t : Fin cfg0.N) :
    (dat0 V c).after 3 t = out0_3 (iblk0 V c 0 t) (iblk0 V c 1 t) (iblk0 V c 2 t) := by dsimp only [dat0]

/-- The body is three whole loads and one whole store, and each input's buffer holds before the body what it holds after. -/
theorem body_obligation0 (c : Dev nD) : BodyObligation (dat0 (F := F) V c) (defs₀ (F := F)) Variants.none () Set.univ := fun t => by
  rw [bigSep_W0, bigSep_W0]
  show _ ⊢ wp _ _ _ (bodyAt0 t) _
  rw [show bodyAt0 (F := F) t = loads3Store (st0_0 t) (st0_1 t) (st0_2 t) (st0_3 t) r0_0 r0_1 r0_2 r0_3 _ _ _ _ _ k0_pay1 by
    unfold bodyAt0; rw [cc0__linear_kernel_eq_skeleton]; rfl]
  exact loads3Store_spec c (fun p => View.cover_of_tiled [⟨r0_3, p⟩] S1000x1024.size (by rfl))
    (fun d => (Dat.before_in_eq_fetched _ 0 rfl (fun _ => rfl) (fun _ _ _ => rfl) (fun _ => rfl) t d).trans rfl)
    (fun d => (Dat.before_in_eq_fetched _ 1 rfl (fun _ => rfl) (fun _ _ _ => rfl) (fun _ => rfl) t d).trans rfl)
    (fun d => (Dat.before_in_eq_fetched _ 2 rfl (fun _ => rfl) (fun _ _ _ => rfl) (fun _ => rfl) t d).trans rfl)
    rfl rfl (by dsimp only [dat0]; rfl)

end Cert.KernelIdeal.Body

end
-- ==== Proof.KernelIdeal.Region1.lean ====
import proofs.«414254_j90761248899606_1_alg».proof.Proof.KernelIdeal.RegionBody

noncomputable section

namespace Cert.KernelIdeal.Body

open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat BodyObligation)
open Cert.KernelIdeal.Gen Cert.KernelIdeal.GenP

variable {F : FTy → Type} [FloatOps F]

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S2000x256 := Rect.unit (s := S2000x256) ![0, 0] S2000x256.size inb_S2000x256_S2000x256_0_0
abbrev r1_1 : Rect S2000x256 := Rect.unit (s := S2000x256) ![0, 0] S2000x256.size inb_S2000x256_S2000x256_0_0
abbrev r1_2 : Rect S2000x256 := Rect.unit (s := S2000x256) ![0, 0] S2000x256.size inb_S2000x256_S2000x256_0_0
abbrev r1_3 : Rect S2000x256 := Rect.unit (s := S2000x256) ![0, 0] S2000x256.size inb_S2000x256_S2000x256_0_0

def out1_3 (x0 : Vec F S2000x256 .f32) (x1 : Vec F S2000x256 .f32) (x2 : Vec F S2000x256 .f32) : Vec F S2000x256 .f32 :=
  View.canon [⟨r1_3, k1_pay1 (View.ld x0 r1_0) (View.ld x1 r1_1) (View.ld x2 r1_2)⟩]

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_3 (c : Dev nD) (t : Fin cfg1.N) :
    (dat1 V c).after 3 t = out1_3 (iblk1 V c 0 t) (iblk1 V c 1 t) (iblk1 V c 2 t) := by dsimp only [dat1]

/-- The body is three whole loads and one whole store, and each input's buffer holds before the body what it holds after. -/
theorem body_obligation1 (c : Dev nD) : BodyObligation (dat1 (F := F) V c) (defs₀ (F := F)) Variants.none () Set.univ := fun t => by
  rw [bigSep_W1, bigSep_W1]
  show _ ⊢ wp _ _ _ (bodyAt1 t) _
  rw [show bodyAt1 (F := F) t = loads3Store (st1_0 t) (st1_1 t) (st1_2 t) (st1_3 t) r1_0 r1_1 r1_2 r1_3 _ _ _ _ _ k1_pay1 by
    unfold bodyAt1; rw [cc1__gating_kernel_eq_skeleton]; rfl]
  exact loads3Store_spec c (fun p => View.cover_of_tiled [⟨r1_3, p⟩] S2000x256.size (by rfl))
    (fun d => (Dat.before_in_eq_fetched _ 0 rfl (fun _ => rfl) (fun _ _ _ => rfl) (fun _ => rfl) t d).trans rfl)
    (fun d => (Dat.before_in_eq_fetched _ 1 rfl (fun _ => rfl) (fun _ _ _ => rfl) (fun _ => rfl) t d).trans rfl)
    (fun d => (Dat.before_in_eq_fetched _ 2 rfl (fun _ => rfl) (fun _ _ _ => rfl) (fun _ => rfl) t d).trans rfl)
    rfl rfl (by dsimp only [dat1]; rfl)

end Cert.KernelIdeal.Body

end
-- ==== Proof.KernelIdeal.Region2.lean ====
import proofs.«414254_j90761248899606_1_alg».proof.Proof.KernelIdeal.RegionBody

noncomputable section

namespace Cert.KernelIdeal.Body

open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat BodyObligation)
open Cert.KernelIdeal.Gen Cert.KernelIdeal.GenP

variable {F : FTy → Type} [FloatOps F]

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S1000x256 := Rect.unit (s := S1000x256) ![0, 0] S1000x256.size inb_S1000x256_S1000x256_0_0
abbrev r2_1 : Rect S256x512 := Rect.unit (s := S256x512) ![0, 0] S256x512.size inb_S256x512_S256x512_0_0
abbrev r2_2 : Rect S1x512 := Rect.unit (s := S1x512) ![0, 0] S1x512.size inb_S1x512_S1x512_0_0
abbrev r2_3 : Rect S1000x512 := Rect.unit (s := S1000x512) ![0, 0] S1000x512.size inb_S1000x512_S1000x512_0_0

def out2_3 (x0 : Vec F S1000x256 .f32) (x1 : Vec F S256x512 .f32) (x2 : Vec F S1x512 .f32) : Vec F S1000x512 .f32 :=
  View.canon [⟨r2_3, k2_pay1 (View.ld x0 r2_0) (View.ld x1 r2_1) (View.ld x2 r2_2)⟩]

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_3 (c : Dev nD) (t : Fin cfg2.N) :
    (dat2 V c).after 3 t = out2_3 (iblk2 V c 0 t) (iblk2 V c 1 t) (iblk2 V c 2 t) := by dsimp only [dat2]

/-- The body is three whole loads and one whole store, and each input's buffer holds before the body what it holds after. -/
theorem body_obligation2 (c : Dev nD) : BodyObligation (dat2 (F := F) V c) (defs₀ (F := F)) Variants.none () Set.univ := fun t => by
  rw [bigSep_W2, bigSep_W2]
  show _ ⊢ wp _ _ _ (bodyAt2 t) _
  rw [show bodyAt2 (F := F) t = loads3Store (st2_0 t) (st2_1 t) (st2_2 t) (st2_3 t) r2_0 r2_1 r2_2 r2_3 _ _ _ _ _ k2_pay1 by
    unfold bodyAt2; rw [cc2__linear_kernel_eq_skeleton]; rfl]
  exact loads3Store_spec c (fun p => View.cover_of_tiled [⟨r2_3, p⟩] S1000x512.size (by rfl))
    (fun d => (Dat.before_in_eq_fetched _ 0 rfl (fun _ => rfl) (fun _ _ _ => rfl) (fun _ => rfl) t d).trans rfl)
    (fun d => (Dat.before_in_eq_fetched _ 1 rfl (fun _ => rfl) (fun _ _ _ => rfl) (fun _ => rfl) t d).trans rfl)
    (fun d => (Dat.before_in_eq_fetched _ 2 rfl (fun _ => rfl) (fun _ _ _ => rfl) (fun _ => rfl) t d).trans rfl)
    rfl rfl (by dsimp only [dat2]; rfl)

end Cert.KernelIdeal.Body

end
-- ==== Proof.KernelIdeal.Region3.lean ====
import proofs.«414254_j90761248899606_1_alg».proof.Proof.KernelIdeal.RegionBody

noncomputable section

namespace Cert.KernelIdeal.Body

open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat BodyObligation)
open Cert.KernelIdeal.Gen Cert.KernelIdeal.GenP

variable {F : FTy → Type} [FloatOps F]

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect S2000x128 := Rect.unit (s := S2000x128) ![0, 0] S2000x128.size inb_S2000x128_S2000x128_0_0
abbrev r3_1 : Rect S2000x128 := Rect.unit (s := S2000x128) ![0, 0] S2000x128.size inb_S2000x128_S2000x128_0_0
abbrev r3_2 : Rect S2000x128 := Rect.unit (s := S2000x128) ![0, 0] S2000x128.size inb_S2000x128_S2000x128_0_0
abbrev r3_3 : Rect S2000x128 := Rect.unit (s := S2000x128) ![0, 0] S2000x128.size inb_S2000x128_S2000x128_0_0

def out3_3 (x0 : Vec F S2000x128 .f32) (x1 : Vec F S2000x128 .f32) (x2 : Vec F S2000x128 .f32) : Vec F S2000x128 .f32 :=
  View.canon [⟨r3_3, k3_pay1 (View.ld x0 r3_0) (View.ld x1 r3_1) (View.ld x2 r3_2)⟩]

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_3 (c : Dev nD) (t : Fin cfg3.N) :
    (dat3 V c).after 3 t = out3_3 (iblk3 V c 0 t) (iblk3 V c 1 t) (iblk3 V c 2 t) := by dsimp only [dat3]

/-- The body is three whole loads and one whole store, and each input's buffer holds before the body what it holds after. -/
theorem body_obligation3 (c : Dev nD) : BodyObligation (dat3 (F := F) V c) (defs₀ (F := F)) Variants.none () Set.univ := fun t => by
  rw [bigSep_W3, bigSep_W3]
  show _ ⊢ wp _ _ _ (bodyAt3 t) _
  rw [show bodyAt3 (F := F) t = loads3Store (st3_0 t) (st3_1 t) (st3_2 t) (st3_3 t) r3_0 r3_1 r3_2 r3_3 _ _ _ _ _ k3_pay1 by
    unfold bodyAt3; rw [cc3__gating_kernel_eq_skeleton]; rfl]
  exact loads3Store_spec c (fun p => View.cover_of_tiled [⟨r3_3, p⟩] S2000x128.size (by rfl))
    (fun d => (Dat.before_in_eq_fetched _ 0 rfl (fun _ => rfl) (fun _ _ _ => rfl) (fun _ => rfl) t d).trans rfl)
    (fun d => (Dat.before_in_eq_fetched _ 1 rfl (fun _ => rfl) (fun _ _ _ => rfl) (fun _ => rfl) t d).trans rfl)
    (fun d => (Dat.before_in_eq_fetched _ 2 rfl (fun _ => rfl) (fun _ _ _ => rfl) (fun _ => rfl) t d).trans rfl)
    rfl rfl (by dsimp only [dat3]; rfl)

end Cert.KernelIdeal.Body

end
-- ==== Proof.KernelIdeal.Region4.lean ====
import proofs.«414254_j90761248899606_1_alg».proof.Proof.KernelIdeal.RegionBody

noncomputable section

namespace Cert.KernelIdeal.Body

open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat BodyObligation)
open Cert.KernelIdeal.Gen Cert.KernelIdeal.GenP

variable {F : FTy → Type} [FloatOps F]

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_0 : Rect S1000x128 := Rect.unit (s := S1000x128) ![0, 0] S1000x128.size inb_S1000x128_S1000x128_0_0
abbrev r4_1 : Rect S128x256 := Rect.unit (s := S128x256) ![0, 0] S128x256.size inb_S128x256_S128x256_0_0
abbrev r4_2 : Rect S1x256 := Rect.unit (s := S1x256) ![0, 0] S1x256.size inb_S1x256_S1x256_0_0
abbrev r4_3 : Rect S1000x256 := Rect.unit (s := S1000x256) ![0, 0] S1000x256.size inb_S1000x256_S1000x256_0_0

def out4_3 (x0 : Vec F S1000x128 .f32) (x1 : Vec F S128x256 .f32) (x2 : Vec F S1x256 .f32) : Vec F S1000x256 .f32 :=
  View.canon [⟨r4_3, k4_pay1 (View.ld x0 r4_0) (View.ld x1 r4_1) (View.ld x2 r4_2)⟩]

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_3 (c : Dev nD) (t : Fin cfg4.N) :
    (dat4 V c).after 3 t = out4_3 (iblk4 V c 0 t) (iblk4 V c 1 t) (iblk4 V c 2 t) := by dsimp only [dat4]

/-- The body is three whole loads and one whole store, and each input's buffer holds before the body what it holds after. -/
theorem body_obligation4 (c : Dev nD) : BodyObligation (dat4 (F := F) V c) (defs₀ (F := F)) Variants.none () Set.univ := fun t => by
  rw [bigSep_W4, bigSep_W4]
  show _ ⊢ wp _ _ _ (bodyAt4 t) _
  rw [show bodyAt4 (F := F) t = loads3Store (st4_0 t) (st4_1 t) (st4_2 t) (st4_3 t) r4_0 r4_1 r4_2 r4_3 _ _ _ _ _ k4_pay1 by
    unfold bodyAt4; rw [cc4__linear_kernel_eq_skeleton]; rfl]
  exact loads3Store_spec c (fun p => View.cover_of_tiled [⟨r4_3, p⟩] S1000x256.size (by rfl))
    (fun d => (Dat.before_in_eq_fetched _ 0 rfl (fun _ => rfl) (fun _ _ _ => rfl) (fun _ => rfl) t d).trans rfl)
    (fun d => (Dat.before_in_eq_fetched _ 1 rfl (fun _ => rfl) (fun _ _ _ => rfl) (fun _ => rfl) t d).trans rfl)
    (fun d => (Dat.before_in_eq_fetched _ 2 rfl (fun _ => rfl) (fun _ _ _ => rfl) (fun _ => rfl) t d).trans rfl)
    rfl rfl (by dsimp only [dat4]; rfl)

end Cert.KernelIdeal.Body

end
-- ==== Proof.KernelIdeal.Region5.lean ====
import proofs.«414254_j90761248899606_1_alg».proof.Proof.KernelIdeal.RegionBody

noncomputable section

namespace Cert.KernelIdeal.Body

open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat BodyObligation)
open Cert.KernelIdeal.Gen Cert.KernelIdeal.GenP

variable {F : FTy → Type} [FloatOps F]

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev r5_0 : Rect S2000x64 := Rect.unit (s := S2000x64) ![0, 0] S2000x64.size inb_S2000x64_S2000x64_0_0
abbrev r5_1 : Rect S2000x64 := Rect.unit (s := S2000x64) ![0, 0] S2000x64.size inb_S2000x64_S2000x64_0_0
abbrev r5_2 : Rect S2000x64 := Rect.unit (s := S2000x64) ![0, 0] S2000x64.size inb_S2000x64_S2000x64_0_0
abbrev r5_3 : Rect S2000x64 := Rect.unit (s := S2000x64) ![0, 0] S2000x64.size inb_S2000x64_S2000x64_0_0

def out5_3 (x0 : Vec F S2000x64 .f32) (x1 : Vec F S2000x64 .f32) (x2 : Vec F S2000x64 .f32) : Vec F S2000x64 .f32 :=
  View.canon [⟨r5_3, k5_pay1 (View.ld x0 r5_0) (View.ld x1 r5_1) (View.ld x2 r5_2)⟩]

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_3 (c : Dev nD) (t : Fin cfg5.N) :
    (dat5 V c).after 3 t = out5_3 (iblk5 V c 0 t) (iblk5 V c 1 t) (iblk5 V c 2 t) := by dsimp only [dat5]

/-- The body is three whole loads and one whole store, and each input's buffer holds before the body what it holds after. -/
theorem body_obligation5 (c : Dev nD) : BodyObligation (dat5 (F := F) V c) (defs₀ (F := F)) Variants.none () Set.univ := fun t => by
  rw [bigSep_W5, bigSep_W5]
  show _ ⊢ wp _ _ _ (bodyAt5 t) _
  rw [show bodyAt5 (F := F) t = loads3Store (st5_0 t) (st5_1 t) (st5_2 t) (st5_3 t) r5_0 r5_1 r5_2 r5_3 _ _ _ _ _ k5_pay1 by
    unfold bodyAt5; rw [cc5__gating_kernel_eq_skeleton]; rfl]
  exact loads3Store_spec c (fun p => View.cover_of_tiled [⟨r5_3, p⟩] S2000x64.size (by rfl))
    (fun d => (Dat.before_in_eq_fetched _ 0 rfl (fun _ => rfl) (fun _ _ _ => rfl) (fun _ => rfl) t d).trans rfl)
    (fun d => (Dat.before_in_eq_fetched _ 1 rfl (fun _ => rfl) (fun _ _ _ => rfl) (fun _ => rfl) t d).trans rfl)
    (fun d => (Dat.before_in_eq_fetched _ 2 rfl (fun _ => rfl) (fun _ _ _ => rfl) (fun _ => rfl) t d).trans rfl)
    rfl rfl (by dsimp only [dat5]; rfl)

end Cert.KernelIdeal.Body

end
-- ==== Proof.KernelIdeal.Vals.lean ====
import proofs.«414254_j90761248899606_1_alg».proof.Proof.KernelIdealRegions
import proofs.«414254_j90761248899606_1_alg».proof.Proof.KernelIdeal.Region0
import proofs.«414254_j90761248899606_1_alg».proof.Proof.KernelIdeal.Region1
import proofs.«414254_j90761248899606_1_alg».proof.Proof.KernelIdeal.Region2
import proofs.«414254_j90761248899606_1_alg».proof.Proof.KernelIdeal.Region3
import proofs.«414254_j90761248899606_1_alg».proof.Proof.KernelIdeal.Region4
import proofs.«414254_j90761248899606_1_alg».proof.Proof.KernelIdeal.Region5

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal.Gen Cert.KernelIdeal.GenP

variable {F : FTy → Type} [FloatOps F]

local notation "𝕄" => MT nD τ sig Unit (Elt F) ℕ (UR sig nD τ) ℕ

variable (m : (ℓ : Loc nD τ sig) → Buf (Elt F) ℓ)

abbrev VR (W : Dev nD → Valuation τ sig (Elt F)) : (c : Dev nD) → (b : Ref sig .tc) → Buf (Elt F) ((c : Thread nD τ).loc b) := fun c b => W c b

def W0 (c : Dev nD) : Valuation τ sig (Elt F) := fun b => m (c, b)

def W1 (c : Dev nD) : Valuation τ sig (Elt F) := StableHlo.after hostOps0 (W0 m c)

def o2 (c : Dev nD) : Buf (Elt F) ((c : Thread nD τ).loc main_v8) := (dat0 (VR (W1 m)) c).arrAt 3 cfg0.N

def W2 (c : Dev nD) : Valuation τ sig (Elt F) := Function.update (W1 m c) main_v8 (o2 m c)

def W3 (c : Dev nD) : Valuation τ sig (Elt F) := StableHlo.after hostOps1 (W2 m c)

def W4 (c : Dev nD) : Valuation τ sig (Elt F) := StableHlo.after hostOps1_1 (W3 m c)

def W5 (c : Dev nD) : Valuation τ sig (Elt F) := StableHlo.after hostOps1_2 (W4 m c)

def W6 (c : Dev nD) : Valuation τ sig (Elt F) := StableHlo.after hostOps1_3 (W5 m c)

def o7 (c : Dev nD) : Buf (Elt F) ((c : Thread nD τ).loc main_v16) := (dat1 (VR (W6 m)) c).arrAt 3 cfg1.N

def W7 (c : Dev nD) : Valuation τ sig (Elt F) := Function.update (W6 m c) main_v16 (o7 m c)

def W8 (c : Dev nD) : Valuation τ sig (Elt F) := StableHlo.after hostOps2 (W7 m c)

def o9 (c : Dev nD) : Buf (Elt F) ((c : Thread nD τ).loc main_v28) := (dat2 (VR (W8 m)) c).arrAt 3 cfg2.N

def W9 (c : Dev nD) : Valuation τ sig (Elt F) := Function.update (W8 m c) main_v28 (o9 m c)

def W10 (c : Dev nD) : Valuation τ sig (Elt F) := StableHlo.after hostOps3 (W9 m c)

def W11 (c : Dev nD) : Valuation τ sig (Elt F) := StableHlo.after hostOps3_1 (W10 m c)

def W12 (c : Dev nD) : Valuation τ sig (Elt F) := StableHlo.after hostOps3_2 (W11 m c)

def W13 (c : Dev nD) : Valuation τ sig (Elt F) := StableHlo.after hostOps3_3 (W12 m c)

def o14 (c : Dev nD) : Buf (Elt F) ((c : Thread nD τ).loc main_v36) := (dat3 (VR (W13 m)) c).arrAt 3 cfg3.N

def W14 (c : Dev nD) : Valuation τ sig (Elt F) := Function.update (W13 m c) main_v36 (o14 m c)

def W15 (c : Dev nD) : Valuation τ sig (Elt F) := StableHlo.after hostOps4 (W14 m c)

def o16 (c : Dev nD) : Buf (Elt F) ((c : Thread nD τ).loc main_v48) := (dat4 (VR (W15 m)) c).arrAt 3 cfg4.N

def W16 (c : Dev nD) : Valuation τ sig (Elt F) := Function.update (W15 m c) main_v48 (o16 m c)

def W17 (c : Dev nD) : Valuation τ sig (Elt F) := StableHlo.after hostOps5 (W16 m c)

def W18 (c : Dev nD) : Valuation τ sig (Elt F) := StableHlo.after hostOps5_1 (W17 m c)

def W19 (c : Dev nD) : Valuation τ sig (Elt F) := StableHlo.after hostOps5_2 (W18 m c)

def W20 (c : Dev nD) : Valuation τ sig (Elt F) := StableHlo.after hostOps5_3 (W19 m c)

def o21 (c : Dev nD) : Buf (Elt F) ((c : Thread nD τ).loc main_v56) := (dat5 (VR (W20 m)) c).arrAt 3 cfg5.N

def W21 (c : Dev nD) : Valuation τ sig (Elt F) := Function.update (W20 m c) main_v56 (o21 m c)

def W22 (c : Dev nD) : Valuation τ sig (Elt F) := StableHlo.after hostOps6 (W21 m c)

end Cert.KernelIdeal.Body

end
-- ==== Proof.KernelIdeal.Run.lean ====
import proofs.«414254_j90761248899606_1_alg».proof.Proof.KernelIdeal.RunCond
import proofs.«414254_j90761248899606_1_alg».proof.Proof.KernelIdeal.Vals

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal.Gen Cert.KernelIdeal.GenP

variable {F : FTy → Type} [FloatOps F]

local notation "𝕄" => MT nD τ sig Unit (Elt F) ℕ (UR sig nD τ) ℕ

variable (m : (ℓ : Loc nD τ sig) → Buf (Elt F) ℓ)

def theOuts : Outs (F := F) := fun J r c => match J with
  | 2 => W2 m c r
  | 7 => W7 m c r
  | 9 => W9 m c r
  | 14 => W14 m c r
  | 16 => W16 m c r
  | 21 => W21 m c r
  | _ => W0 m c r

-- Replacing one buffer of a valuation leaves every other buffer as it was.
theorem upd_other (W : Valuation τ sig (Elt F)) (o r : Ref sig .tc) (v) (h : r ≠ o) : Function.update W o v r = W r :=
  Function.update_of_ne (StableHlo.devRef_ne_of_ne h) _ _

theorem upd_same (W : Valuation τ sig (Elt F)) (o : Ref sig .tc) (v) : Function.update W o v o = v := Function.update_self _ _ _

theorem passes0 (c : Dev nD) (r : Ref sig .tc) (h : r ≠ main_v8) : W2 m c r = W1 m c r := upd_other _ _ _ _ h
theorem out0_eq (c : Dev nD) : W2 m c main_v8 = o2 m c := upd_same _ _ _
theorem passes1 (c : Dev nD) (r : Ref sig .tc) (h : r ≠ main_v16) : W7 m c r = W6 m c r := upd_other _ _ _ _ h
theorem out1_eq (c : Dev nD) : W7 m c main_v16 = o7 m c := upd_same _ _ _
theorem passes2 (c : Dev nD) (r : Ref sig .tc) (h : r ≠ main_v28) : W9 m c r = W8 m c r := upd_other _ _ _ _ h
theorem out2_eq (c : Dev nD) : W9 m c main_v28 = o9 m c := upd_same _ _ _
theorem passes3 (c : Dev nD) (r : Ref sig .tc) (h : r ≠ main_v36) : W14 m c r = W13 m c r := upd_other _ _ _ _ h
theorem out3_eq (c : Dev nD) : W14 m c main_v36 = o14 m c := upd_same _ _ _
theorem passes4 (c : Dev nD) (r : Ref sig .tc) (h : r ≠ main_v48) : W16 m c r = W15 m c r := upd_other _ _ _ _ h
theorem out4_eq (c : Dev nD) : W16 m c main_v48 = o16 m c := upd_same _ _ _
theorem passes5 (c : Dev nD) (r : Ref sig .tc) (h : r ≠ main_v56) : W21 m c r = W20 m c r := upd_other _ _ _ _ h
theorem out5_eq (c : Dev nD) : W21 m c main_v56 = o21 m c := upd_same _ _ _

theorem VW1 (c : Dev nD) : V1 m c = W1 m c := rfl
theorem VW2 (c : Dev nD) : V2 m (theOuts m) c = W2 m c := by
  show Function.update (V1 m c) main_v8 (W2 m c main_v8) = _
  rw [VW1, out0_eq]; rfl
theorem VW3 (c : Dev nD) : V3 m (theOuts m) c = W3 m c := congrArg (StableHlo.after hostOps1) (VW2 m c)
theorem VW4 (c : Dev nD) : V4 m (theOuts m) c = W4 m c := congrArg (StableHlo.after hostOps1_1) (VW3 m c)
theorem VW5 (c : Dev nD) : V5 m (theOuts m) c = W5 m c := congrArg (StableHlo.after hostOps1_2) (VW4 m c)
theorem VW6 (c : Dev nD) : V6 m (theOuts m) c = W6 m c := congrArg (StableHlo.after hostOps1_3) (VW5 m c)
theorem VW7 (c : Dev nD) : V7 m (theOuts m) c = W7 m c := by
  show Function.update (V6 m (theOuts m) c) main_v16 (W7 m c main_v16) = _
  rw [VW6, out1_eq]; rfl
theorem VW8 (c : Dev nD) : V8 m (theOuts m) c = W8 m c := congrArg (StableHlo.after hostOps2) (VW7 m c)
theorem VW9 (c : Dev nD) : V9 m (theOuts m) c = W9 m c := by
  show Function.update (V8 m (theOuts m) c) main_v28 (W9 m c main_v28) = _
  rw [VW8, out2_eq]; rfl
theorem VW10 (c : Dev nD) : V10 m (theOuts m) c = W10 m c := congrArg (StableHlo.after hostOps3) (VW9 m c)
theorem VW11 (c : Dev nD) : V11 m (theOuts m) c = W11 m c := congrArg (StableHlo.after hostOps3_1) (VW10 m c)
theorem VW12 (c : Dev nD) : V12 m (theOuts m) c = W12 m c := congrArg (StableHlo.after hostOps3_2) (VW11 m c)
theorem VW13 (c : Dev nD) : V13 m (theOuts m) c = W13 m c := congrArg (StableHlo.after hostOps3_3) (VW12 m c)
theorem VW14 (c : Dev nD) : V14 m (theOuts m) c = W14 m c := by
  show Function.update (V13 m (theOuts m) c) main_v36 (W14 m c main_v36) = _
  rw [VW13, out3_eq]; rfl
theorem VW15 (c : Dev nD) : V15 m (theOuts m) c = W15 m c := congrArg (StableHlo.after hostOps4) (VW14 m c)
theorem VW16 (c : Dev nD) : V16 m (theOuts m) c = W16 m c := by
  show Function.update (V15 m (theOuts m) c) main_v48 (W16 m c main_v48) = _
  rw [VW15, out4_eq]; rfl
theorem VW17 (c : Dev nD) : V17 m (theOuts m) c = W17 m c := congrArg (StableHlo.after hostOps5) (VW16 m c)
theorem VW18 (c : Dev nD) : V18 m (theOuts m) c = W18 m c := congrArg (StableHlo.after hostOps5_1) (VW17 m c)
theorem VW19 (c : Dev nD) : V19 m (theOuts m) c = W19 m c := congrArg (StableHlo.after hostOps5_2) (VW18 m c)
theorem VW20 (c : Dev nD) : V20 m (theOuts m) c = W20 m c := congrArg (StableHlo.after hostOps5_3) (VW19 m c)
theorem VW21 (c : Dev nD) : V21 m (theOuts m) c = W21 m c := by
  show Function.update (V20 m (theOuts m) c) main_v56 (W21 m c main_v56) = _
  rw [VW20, out5_eq]; rfl
theorem VW22 (c : Dev nD) : V22 m (theOuts m) c = W22 m c := congrArg (StableHlo.after hostOps6) (VW21 m c)

def theDats : (p : Fin 6) → (c : Dev nD) → Dat τ (Elt F) Unit ℕ (UR sig nD τ) ℕ (cfgs p) c
  | ⟨0, _⟩ => fun c => dat0 (VR (W1 m)) c
  | ⟨1, _⟩ => fun c => dat1 (VR (W6 m)) c
  | ⟨2, _⟩ => fun c => dat2 (VR (W8 m)) c
  | ⟨3, _⟩ => fun c => dat3 (VR (W13 m)) c
  | ⟨4, _⟩ => fun c => dat4 (VR (W15 m)) c
  | ⟨5, _⟩ => fun c => dat5 (VR (W20 m)) c

abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)

set_option backward.isDefEq.respectTransparency.types false in
-- A region takes its arrays out of the buffers held at `Wi` and puts them back, held at `Wo`, on leaving.
def mkReg (p : Fin 6) (lf : Pipeline.LaunchFacts (nD := nD) (τ := τ) cfgs p) (Wi Wo : Dev nD → Valuation τ sig (Elt F))
    (hbody : ∀ c, BodyObligation (theDats m p c) (defs₀ (F := F)) 𝒱₀ () Set.univ)
    (hq : ∀ c w, (theDats m p c).q w = fullShare) (howed : ∀ c t, (theDats m p c).owed t = 0)
    (hrec : ∀ c t, (theDats m p c).recorded t = Set.univ)
    (hΦ : ∀ c t, (theDats m p c).Φ t = Pipeline.ΦA (cfgs p).spec c)
    (hA : ∀ c w, (theDats m p c).A w = VR Wi c (Pipeline.arrRef (cfgs p).spec w))
    (hF : ∀ c w, (theDats m p c).arrAt w (cfgs p).N = VR Wo c (Pipeline.arrRef (cfgs p).spec w))
    (hrest : ∀ c b, b ∉ Finset.univ.image (Pipeline.arrRef (cfgs p).spec) → VR Wo c b = VR Wi c b) :
    RegionSeg (pcfgs (F := F)) adm (theDats m) () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Wi c) ∗ R c)
  post c := iprop(StableHlo.held (c : Thread nD τ) (Pipeline.ucRefs τ sig) (Wo c) ∗ R c)
  X c := iprop(∃ r, prngReg c r)
  Y c := iprop(∃ r, prngReg c r)
  Z c := Pipeline.unscopedRest (Ix := Unit) (Name := ℕ) (U := UR sig nD τ) (Lvl := ℕ) (cfgs p).spec c (VR Wi c)
  hentry c := by
    rw [Pipeline.ownSems0_none]
    have hsplit := Pipeline.arrays_of_unscopedBufs (p := p) (pcfgs (F := F)) adm (theDats m) lf.win lf.arr_whole c
      ((theDats m p c).share_full (hq c)) (VR Wi c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [howed c 0]
      icases HO with ⟨%W, HO⟩; iexists W; isplitr; · ipureintro; exact fun _ _ => Or.inl (by rw [hrec c 0]; trivial)
      iexact HO
    isplitl [Hp]; · iexact Hp
    iexact Hrest
  hin c := by
    rw [hΦ c 0]; unfold Pipeline.ΦA
    iintro ⟨Hp, -, Hr⟩
    isplitl [Hr]; · iexact Hr
    iexact Hp
  hout c := by
    rw [Pipeline.ownSems0_none, hΦ c (Fin.last _)]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (theDats m) ((theDats m p c).share_full (hq c))
      (VR Wi c) (VR Wo c) ((theDats m p c).arrAt · (cfgs p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [howed c _]
    icases HO with ⟨%W, -, HO⟩; iexists W; iexact HO

set_option maxHeartbeats 1000000 in
theorem hF0 (c : Dev nD) (w : Fin cfg0.W) : (dat0 (VR (W1 m)) c).arrAt w cfg0.N = VR (W2 m) c (Pipeline.arrRef spec0 w) := by
  match w with
  | ⟨3, _⟩ => exact (out0_eq m c).symm
  | ⟨0, _⟩ => exact ((dat0 (VR (W1 m)) c).arrAt_in 0 rfl _).trans ((A_eq0 (VR (W1 m)) c 0).trans (passes0 m c _ (by decide)).symm)
  | ⟨1, _⟩ => exact ((dat0 (VR (W1 m)) c).arrAt_in 1 rfl _).trans ((A_eq0 (VR (W1 m)) c 1).trans (passes0 m c _ (by decide)).symm)
  | ⟨2, _⟩ => exact ((dat0 (VR (W1 m)) c).arrAt_in 2 rfl _).trans ((A_eq0 (VR (W1 m)) c 2).trans (passes0 m c _ (by decide)).symm)
theorem hrest0 (c : Dev nD) (b : Ref sig .tc) (hb : b ∉ Finset.univ.image (Pipeline.arrRef spec0)) : VR (W2 m) c b = VR (W1 m) c b :=
  passes0 m c b fun e => hb (Finset.mem_image.mpr ⟨3, Finset.mem_univ _, e.symm⟩)
def reg0 : RegionSeg (pcfgs (F := F)) adm (theDats m) () defs₀ 𝒱₀ L lv 0 :=
  mkReg m 0 launch0 (W1 m) (W2 m) (fun c => body_obligation0 (VR (W1 m)) c) (fun _ _ => rfl) (fun _ _ => rfl) (fun _ _ => rfl)
    (fun _ _ => rfl) (fun _ _ => rfl) (hF0 m) (hrest0 m)

set_option maxHeartbeats 1000000 in
theorem hF1 (c : Dev nD) (w : Fin cfg1.W) : (dat1 (VR (W6 m)) c).arrAt w cfg1.N = VR (W7 m) c (Pipeline.arrRef spec1 w) := by
  match w with
  | ⟨3, _⟩ => exact (out1_eq m c).symm
  | ⟨0, _⟩ => exact ((dat1 (VR (W6 m)) c).arrAt_in 0 rfl _).trans ((A_eq1 (VR (W6 m)) c 0).trans (passes1 m c _ (by decide)).symm)
  | ⟨1, _⟩ => exact ((dat1 (VR (W6 m)) c).arrAt_in 1 rfl _).trans ((A_eq1 (VR (W6 m)) c 1).trans (passes1 m c _ (by decide)).symm)
  | ⟨2, _⟩ => exact ((dat1 (VR (W6 m)) c).arrAt_in 2 rfl _).trans ((A_eq1 (VR (W6 m)) c 2).trans (passes1 m c _ (by decide)).symm)
theorem hrest1 (c : Dev nD) (b : Ref sig .tc) (hb : b ∉ Finset.univ.image (Pipeline.arrRef spec1)) : VR (W7 m) c b = VR (W6 m) c b :=
  passes1 m c b fun e => hb (Finset.mem_image.mpr ⟨3, Finset.mem_univ _, e.symm⟩)
def reg1 : RegionSeg (pcfgs (F := F)) adm (theDats m) () defs₀ 𝒱₀ L lv 1 :=
  mkReg m 1 launch1 (W6 m) (W7 m) (fun c => body_obligation1 (VR (W6 m)) c) (fun _ _ => rfl) (fun _ _ => rfl) (fun _ _ => rfl)
    (fun _ _ => rfl) (fun _ _ => rfl) (hF1 m) (hrest1 m)

set_option maxHeartbeats 1000000 in
theorem hF2 (c : Dev nD) (w : Fin cfg2.W) : (dat2 (VR (W8 m)) c).arrAt w cfg2.N = VR (W9 m) c (Pipeline.arrRef spec2 w) := by
  match w with
  | ⟨3, _⟩ => exact (out2_eq m c).symm
  | ⟨0, _⟩ => exact ((dat2 (VR (W8 m)) c).arrAt_in 0 rfl _).trans ((A_eq2 (VR (W8 m)) c 0).trans (passes2 m c _ (by decide)).symm)
  | ⟨1, _⟩ => exact ((dat2 (VR (W8 m)) c).arrAt_in 1 rfl _).trans ((A_eq2 (VR (W8 m)) c 1).trans (passes2 m c _ (by decide)).symm)
  | ⟨2, _⟩ => exact ((dat2 (VR (W8 m)) c).arrAt_in 2 rfl _).trans ((A_eq2 (VR (W8 m)) c 2).trans (passes2 m c _ (by decide)).symm)
theorem hrest2 (c : Dev nD) (b : Ref sig .tc) (hb : b ∉ Finset.univ.image (Pipeline.arrRef spec2)) : VR (W9 m) c b = VR (W8 m) c b :=
  passes2 m c b fun e => hb (Finset.mem_image.mpr ⟨3, Finset.mem_univ _, e.symm⟩)
def reg2 : RegionSeg (pcfgs (F := F)) adm (theDats m) () defs₀ 𝒱₀ L lv 2 :=
  mkReg m 2 launch2 (W8 m) (W9 m) (fun c => body_obligation2 (VR (W8 m)) c) (fun _ _ => rfl) (fun _ _ => rfl) (fun _ _ => rfl)
    (fun _ _ => rfl) (fun _ _ => rfl) (hF2 m) (hrest2 m)

set_option maxHeartbeats 1000000 in
theorem hF3 (c : Dev nD) (w : Fin cfg3.W) : (dat3 (VR (W13 m)) c).arrAt w cfg3.N = VR (W14 m) c (Pipeline.arrRef spec3 w) := by
  match w with
  | ⟨3, _⟩ => exact (out3_eq m c).symm
  | ⟨0, _⟩ => exact ((dat3 (VR (W13 m)) c).arrAt_in 0 rfl _).trans ((A_eq3 (VR (W13 m)) c 0).trans (passes3 m c _ (by decide)).symm)
  | ⟨1, _⟩ => exact ((dat3 (VR (W13 m)) c).arrAt_in 1 rfl _).trans ((A_eq3 (VR (W13 m)) c 1).trans (passes3 m c _ (by decide)).symm)
  | ⟨2, _⟩ => exact ((dat3 (VR (W13 m)) c).arrAt_in 2 rfl _).trans ((A_eq3 (VR (W13 m)) c 2).trans (passes3 m c _ (by decide)).symm)
theorem hrest3 (c : Dev nD) (b : Ref sig .tc) (hb : b ∉ Finset.univ.image (Pipeline.arrRef spec3)) : VR (W14 m) c b = VR (W13 m) c b :=
  passes3 m c b fun e => hb (Finset.mem_image.mpr ⟨3, Finset.mem_univ _, e.symm⟩)
def reg3 : RegionSeg (pcfgs (F := F)) adm (theDats m) () defs₀ 𝒱₀ L lv 3 :=
  mkReg m 3 launch3 (W13 m) (W14 m) (fun c => body_obligation3 (VR (W13 m)) c) (fun _ _ => rfl) (fun _ _ => rfl) (fun _ _ => rfl)
    (fun _ _ => rfl) (fun _ _ => rfl) (hF3 m) (hrest3 m)

set_option maxHeartbeats 1000000 in
theorem hF4 (c : Dev nD) (w : Fin cfg4.W) : (dat4 (VR (W15 m)) c).arrAt w cfg4.N = VR (W16 m) c (Pipeline.arrRef spec4 w) := by
  match w with
  | ⟨3, _⟩ => exact (out4_eq m c).symm
  | ⟨0, _⟩ => exact ((dat4 (VR (W15 m)) c).arrAt_in 0 rfl _).trans ((A_eq4 (VR (W15 m)) c 0).trans (passes4 m c _ (by decide)).symm)
  | ⟨1, _⟩ => exact ((dat4 (VR (W15 m)) c).arrAt_in 1 rfl _).trans ((A_eq4 (VR (W15 m)) c 1).trans (passes4 m c _ (by decide)).symm)
  | ⟨2, _⟩ => exact ((dat4 (VR (W15 m)) c).arrAt_in 2 rfl _).trans ((A_eq4 (VR (W15 m)) c 2).trans (passes4 m c _ (by decide)).symm)
theorem hrest4 (c : Dev nD) (b : Ref sig .tc) (hb : b ∉ Finset.univ.image (Pipeline.arrRef spec4)) : VR (W16 m) c b = VR (W15 m) c b :=
  passes4 m c b fun e => hb (Finset.mem_image.mpr ⟨3, Finset.mem_univ _, e.symm⟩)
def reg4 : RegionSeg (pcfgs (F := F)) adm (theDats m) () defs₀ 𝒱₀ L lv 4 :=
  mkReg m 4 launch4 (W15 m) (W16 m) (fun c => body_obligation4 (VR (W15 m)) c) (fun _ _ => rfl) (fun _ _ => rfl) (fun _ _ => rfl)
    (fun _ _ => rfl) (fun _ _ => rfl) (hF4 m) (hrest4 m)

set_option maxHeartbeats 1000000 in
theorem hF5 (c : Dev nD) (w : Fin cfg5.W) : (dat5 (VR (W20 m)) c).arrAt w cfg5.N = VR (W21 m) c (Pipeline.arrRef spec5 w) := by
  match w with
  | ⟨3, _⟩ => exact (out5_eq m c).symm
  | ⟨0, _⟩ => exact ((dat5 (VR (W20 m)) c).arrAt_in 0 rfl _).trans ((A_eq5 (VR (W20 m)) c 0).trans (passes5 m c _ (by decide)).symm)
  | ⟨1, _⟩ => exact ((dat5 (VR (W20 m)) c).arrAt_in 1 rfl _).trans ((A_eq5 (VR (W20 m)) c 1).trans (passes5 m c _ (by decide)).symm)
  | ⟨2, _⟩ => exact ((dat5 (VR (W20 m)) c).arrAt_in 2 rfl _).trans ((A_eq5 (VR (W20 m)) c 2).trans (passes5 m c _ (by decide)).symm)
theorem hrest5 (c : Dev nD) (b : Ref sig .tc) (hb : b ∉ Finset.univ.image (Pipeline.arrRef spec5)) : VR (W21 m) c b = VR (W20 m) c b :=
  passes5 m c b fun e => hb (Finset.mem_image.mpr ⟨3, Finset.mem_univ _, e.symm⟩)
def reg5 : RegionSeg (pcfgs (F := F)) adm (theDats m) () defs₀ 𝒱₀ L lv 5 :=
  mkReg m 5 launch5 (W20 m) (W21 m) (fun c => body_obligation5 (VR (W20 m)) c) (fun _ _ => rfl) (fun _ _ => rfl) (fun _ _ => rfl)
    (fun _ _ => rfl) (fun _ _ => rfl) (hF5 m) (hrest5 m)

theorem hu₀ : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ fun _ : Dev nD => (iprop(emp) : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

theorem hE0 (ρ : Dev nD → PrngReg) : iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (iprop(emp) : sProp 𝕄))) ∗ levAts L lv)
    ⊢ (|={Set.univ}=> bigSep Finset.univ (fun c : Dev nD => R (F := F) c) : sProp 𝕄) := by
  refine Pipeline.initEach L lv fun c => ?_
  iintro ⟨⟨-, HO, -, Hp, -⟩, -⟩
  imodintro
  isplitl [Hp]; · iexists _; iexact Hp
  iexists ∅; iexact HO

theorem hE6 (c : Dev nD) : R (F := F) c ⊢ (iprop(∃ W, owes (c : Thread nD τ) (0 : CellTallies nD τ sig Unit) W) : sProp 𝕄) := by
  iintro ⟨-, H⟩; iexact H

set_option backward.isDefEq.respectTransparency.types false in
-- Every weakly fair execution of @main ends with the result buffer at the last boundary's contents and every argument as launched.
theorem run_result (ρ : Dev nD → PrngReg) :
    θ_run defs (onTc (τ := τ) (main (F := F))) ⟨m, fun _ => 0, ρ⟩ (fun r => ∀ c : Dev nD,
      r.2.mem ((c.tc : Thread nD τ).loc main_v74) = W22 m c main_v74 ∧ Kept m r.2 c) :=
  (θ_run defs _ _).mono (fun r h c => ⟨(h c).1.trans (congrFun (VW22 m c) _), (h c).2⟩)
    (run_cond (F := F) m emb₁ () 𝒱₀ L lv (fun _ _ => rfl) ρ (theOuts m) (theDats m) 0 (fun _ => iprop(emp))
    (initOf (Pipeline.cells cfgs cellOf_inj) (Pipeline.launchToks cfgs cellOf_inj)) (hu₀ (F := F)) (fun _ c => R c) (hE0 ρ) (fun c => hE6 c)
    (reg0 m) (fun c => by rw [VW1]; exact .rfl) (fun c => by rw [VW2]; exact .rfl) (reg1 m) (fun c => by rw [VW6]; exact .rfl) (fun c => by rw [VW7]; exact .rfl) (reg2 m) (fun c => by rw [VW8]; exact .rfl) (fun c => by rw [VW9]; exact .rfl) (reg3 m) (fun c => by rw [VW13]; exact .rfl) (fun c => by rw [VW14]; exact .rfl) (reg4 m) (fun c => by rw [VW15]; exact .rfl) (fun c => by rw [VW16]; exact .rfl) (reg5 m) (fun c => by rw [VW20]; exact .rfl) (fun c => by rw [VW21]; exact .rfl))

end Cert.KernelIdeal.Body

end
-- ==== Proof.RefSide.lean ====
import proofs.«414254_j90761248899606_1_alg».proof.Proof.Gen.ReferenceIdeal.Run

noncomputable section

namespace Cert.RefSide

open Cert.ReferenceIdeal Cert.ReferenceIdeal.Gen Cert.ReferenceIdeal.Value Idealize.ShloMosaic Idealize.SL.Sem

variable {F : FTy → Type} [FloatOps F]

/-- A negative index wrapped by the extent, laid as a column. -/
def wrap (i : IVec S320000 32) : IVec S320000x1 32 :=
  broadcastInDim S320000x1 ![0] bcast_S320000_S320000x1_0 (select (cmpi .slt i (broadcastInDim S320000 ![] bcast_S_S320000 (constantI S_ 32 0#32))) (addi i (broadcastInDim S320000 ![] bcast_S_S320000 (constantI S_ 32 20000#32))) i)

/-- One layer: the skip projection, plus the sum into each target node of logistic(key(target) + query(source)) · value(source) over the edges, plus the bias. -/
def layer {k d : Nat} (dd : DotDims ⟨2, ![20000, k]⟩ ⟨2, ![k, d]⟩ ⟨2, ![20000, d]⟩) (g : GatherDims ⟨2, ![20000, d]⟩ S320000x1 ⟨2, ![320000, d]⟩)
    (sc : ScatterDims ⟨2, ![20000, d]⟩ S320000x1 ⟨2, ![320000, d]⟩) (hn : S_.BroadcastsInDim ⟨2, ![20000, d]⟩ ![]) (he : S_.BroadcastsInDim ⟨2, ![320000, d]⟩ ![])
    (h1 : (⟨1, ![d]⟩ : Shape).BroadcastsInDim ⟨2, ![1, d]⟩ ![1]) (h2 : (⟨2, ![1, d]⟩ : Shape).BroadcastsInDim ⟨2, ![20000, d]⟩ ![0, 1])
    (x : FVec F ⟨2, ![20000, k]⟩ .f32) (src dst : IVec S320000 32) (kw qw vw sw : FVec F ⟨2, ![k, d]⟩ .f32) (kb qb vb bias : FVec F ⟨1, ![d]⟩ .f32) :
    FVec F ⟨2, ![20000, d]⟩ .f32 :=
  let row := fun b => broadcastInDim _ ![0, 1] h2 (broadcastInDim _ ![1] h1 b)
  let rd := fun w b i => Host.gather g (addf (Host.dotGeneral dd none x w) (row b)) (wrap i)
  let one := broadcastInDim _ ![] he (constant S_ .f32 0x3F800000#32)
  addf (addf (Host.dotGeneral dd none x sw) (Host.scatterAdd sc (broadcastInDim _ ![] hn (constant S_ .f32 0x00000000#32)) (broadcastInDim S320000x1 ![0] bcast_S320000_S320000x1_0 dst)
    (mulf (Host.divf one (addf one (Host.exp (Host.negf (addf (rd kw kb dst) (rd qw qb src)))))) (rd vw vb src)))) (row bias)

def refLayer256 (x : FVec F S20000x256 .f32) (src dst : IVec S320000 32) (kw : FVec F S256x256 .f32) (kb : FVec F S256 .f32) (qw : FVec F S256x256 .f32) (qb : FVec F S256 .f32)
    (vw : FVec F S256x256 .f32) (vb : FVec F S256 .f32) (sw : FVec F S256x256 .f32) (bias : FVec F S256 .f32) : FVec F S20000x256 .f32 :=
  layer dot_S20000x256_S256x256_S20000x256_1_0_0_1_n_n gather_S20000x256_S320000x1_S320000x256_1_0_n_n_0_1_1256 scatter_S20000x256_S320000x1_S320000x256_1_0_0_1
    bcast_S_S20000x256 bcast_S_S320000x256 bcast_S256_S1x256_1 bcast_S1x256_S20000x256_0_1 x src dst kw qw vw sw kb qb vb bias

theorem res_main_v52_eq (V0 : Valuation τ sig (Elt F)) :
    res_main_v52 V0 = refLayer256 (V0 (Proc.devRef .tc main_arg0)) (res_main_v1 V0) (res_main_v3 V0) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg20)) (V0 (Proc.devRef .tc main_arg21)) := rfl

def refLayer128 (x : FVec F S20000x256 .f32) (src dst : IVec S320000 32) (kw : FVec F S256x128 .f32) (kb : FVec F S128 .f32) (qw : FVec F S256x128 .f32) (qb : FVec F S128 .f32)
    (vw : FVec F S256x128 .f32) (vb : FVec F S128 .f32) (sw : FVec F S256x128 .f32) (bias : FVec F S128 .f32) : FVec F S20000x128 .f32 :=
  layer dot_S20000x256_S256x128_S20000x128_1_0_0_1_n_n gather_S20000x128_S320000x1_S320000x128_1_0_n_n_0_1_1128 scatter_S20000x128_S320000x1_S320000x128_1_0_0_1
    bcast_S_S20000x128 bcast_S_S320000x128 bcast_S128_S1x128_1 bcast_S1x128_S20000x128_0_1 x src dst kw qw vw sw kb qb vb bias

theorem res_main_v101_eq (V0 : Valuation τ sig (Elt F)) :
    res_main_v101 V0 = refLayer128 (res_main_v52 V0) (res_main_v1 V0) (res_main_v3 V0) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg22)) (V0 (Proc.devRef .tc main_arg23)) := rfl

def refLayer64 (x : FVec F S20000x128 .f32) (src dst : IVec S320000 32) (kw : FVec F S128x64 .f32) (kb : FVec F S64 .f32) (qw : FVec F S128x64 .f32) (qb : FVec F S64 .f32)
    (vw : FVec F S128x64 .f32) (vb : FVec F S64 .f32) (sw : FVec F S128x64 .f32) (bias : FVec F S64 .f32) : FVec F S20000x64 .f32 :=
  layer dot_S20000x128_S128x64_S20000x64_1_0_0_1_n_n gather_S20000x64_S320000x1_S320000x64_1_0_n_n_0_1_164 scatter_S20000x64_S320000x1_S320000x64_1_0_0_1
    bcast_S_S20000x64 bcast_S_S320000x64 bcast_S64_S1x64_1 bcast_S1x64_S20000x64_0_1 x src dst kw qw vw sw kb qb vb bias

theorem res_main_v150_eq (V0 : Valuation τ sig (Elt F)) :
    res_main_v150 V0 = refLayer64 (res_main_v101 V0) (res_main_v1 V0) (res_main_v3 V0) (V0 (Proc.devRef .tc main_arg14)) (V0 (Proc.devRef .tc main_arg15)) (V0 (Proc.devRef .tc main_arg16)) (V0 (Proc.devRef .tc main_arg17)) (V0 (Proc.devRef .tc main_arg18)) (V0 (Proc.devRef .tc main_arg19)) (V0 (Proc.devRef .tc main_arg24)) (V0 (Proc.devRef .tc main_arg25)) := rfl

/-- Each row's exponentials, shifted by the row's maximum, over their sum. -/
def refSoftmax (h : FVec F S20000x64 .f32) : FVec F S20000x64 .f32 :=
  let e := Host.exp (subf h (broadcastInDim S20000x64 ![0, 1] bcast_S20000x1_S20000x64_0_1 (broadcastInDim S20000x1 ![0] bcast_S20000_S20000x1_0 (maximumf (broadcastInDim S20000 ![] bcast_S_S20000 (constant S_ .f32 0xFF800000#32)) (Host.reduce FloatOps.maximumf h (constant S_ .f32 0xFF800000#32) reducesTo_S20000x64_S20000_d1 h_S_)))))
  Host.divf e (broadcastInDim S20000x64 ![0, 1] bcast_S20000x1_S20000x64_0_1 (broadcastInDim S20000x1 ![0] bcast_S20000_S20000x1_0 (Host.reduceAdd e (constant S_ .f32 0x00000000#32) reducesTo_S20000x64_S20000_d1 h_S_)))

theorem result_eq (V0 : Valuation τ sig (Elt F)) :
    Host.divf (res_main_v157 V0) (broadcastInDim S20000x64 ![0, 1] bcast_S20000x1_S20000x64_0_1 (broadcastInDim S20000x1 ![0] bcast_S20000_S20000x1_0 (Host.reduceAdd (res_main_v157 V0) (constant S_ .f32 0x00000000#32) reducesTo_S20000x64_S20000_d1 h_S_))) = refSoftmax (res_main_v150 V0) := rfl

theorem src_eq (V0 : Valuation τ sig (Elt F)) : res_main_v1 V0 = shapeCast S320000 (extractStridedSlice S1x320000 ![0, 0] (V0 (Proc.devRef .tc main_arg1)) slices_S2x320000_S1x320000_0_0) shapeCasts_S1x320000_S320000 := rfl
theorem dst_eq (V0 : Valuation τ sig (Elt F)) : res_main_v3 V0 = shapeCast S320000 (extractStridedSlice S1x320000 ![1, 0] (V0 (Proc.devRef .tc main_arg1)) slices_S2x320000_S1x320000_1_0) shapeCasts_S1x320000_S320000 := rfl

end Cert.RefSide

end
-- ==== Proof.KernelIdeal.Take.lean ====
import proofs.«414254_j90761248899606_1_alg».proof.Proof.Gen.KernelIdeal
import Idealize.ShloMosaic.Lib.ReduceAll

namespace Cert.KernelIdeal.Take

open Idealize.ShloMosaic Cert.KernelIdeal Cert.KernelIdeal.Gen

variable {F : FTy → Type} [FloatOps F]

/-- A word in [0, 20000) is at least 0 and at most 19999. -/
theorem range_word (x : BitVec 32) (h0 : 0 ≤ x.toInt) (h1 : x.toInt < 20000) :
    IntOp.andi (IntOp.cmpi .sge x 0#32) (IntOp.cmpi .sle x 19999#32) = 1#1 :=
  IntOp.andi_eq_one.2 ⟨IntOp.cmpi_sge.2 h0, IntOp.cmpi_sle.2 (by show _ ≤ (19999 : Int); omega)⟩

def wrapCol (idx : IVec S320000 32) : IVec S320000x1 32 :=
  broadcastInDim S320000x1 ![0] bcast_S320000_S320000x1_0
    (select (cmpi .slt idx (broadcastInDim S320000 ![] bcast_S_S320000 (constantI S_ 32 0#32)))
      (addi idx (broadcastInDim S320000 ![] bcast_S_S320000 (constantI S_ 32 20000#32))) idx)

def inRange (idx : IVec S320000 32) : IVec S320000 1 :=
  Host.reduce IntOp.andi
    (andi (cmpi .sge (wrapCol idx) (broadcastInDim S320000x1 ![] bcast_S_S320000x1 (constantI S_ 32 0#32)))
      (cmpi .sle (wrapCol idx)
        (broadcastInDim S320000x1 ![0, 1] bcast_S1x1_S320000x1_0_1
          (broadcastInDim S1x1 ![1] bcast_S1_S1x1_1 (constantI S1 32 19999#32)))))
    (constantI S_ 1 1#1) reducesTo_S320000x1_S320000_d1 h_S_

/-- A non-negative index is not below zero, so the select keeps it. -/
theorem wrapCol_eq (idx : IVec S320000 32) (h : ∀ e : S320000.Idx, 0 ≤ (idx e).toInt) :
    wrapCol idx = broadcastInDim S320000x1 ![0] bcast_S320000_S320000x1_0 idx := by
  unfold wrapCol
  congr 1
  funext e
  exact if_neg fun hc => not_lt.2 (h e) (IntOp.cmpi_slt.1 hc)

/-- With every index in [0, 20000) the mask is all ones, so the select keeps the gathered rows. -/
theorem select_inRange {α : Type} {t : Shape} (dims : Fin S320000.rank → Fin t.rank) (hb : S320000.BroadcastsInDim t dims)
    (idx : IVec S320000 32) (h : ∀ e : S320000.Idx, 0 ≤ (idx e).toInt ∧ (idx e).toInt < 20000) (g c : t.Idx → α) :
    select (broadcastInDim t dims hb (inRange idx)) g c = g := by
  have hm : inRange idx = fun _ => 1#1 := by
    funext j
    unfold inRange
    rw [Host.reduce_eq_foldl]
    refine List.foldl_fixed' (fun i => ?_) _
    rw [wrapCol_eq idx fun e => (h e).1]
    exact congrArg (IntOp.andi 1#1) (range_word _ (h _).1 (h _).2)
  rw [hm]
  funext i
  rfl

theorem take256 (a : FVec F S20000x256 .f32) (idx : IVec S320000 32)
    (h : ∀ e : S320000.Idx, 0 ≤ (idx e).toInt ∧ (idx e).toInt < 20000) :
    select (broadcastInDim S320000x256 ![0] bcast_S320000_S320000x256_0 (inRange idx))
        (Host.gather gather_S20000x256_S320000x1_S320000x256_1_0_n_n_0_1_1256 a (wrapCol idx))
        (broadcastInDim S320000x256 ![] bcast_S_S320000x256 (constant S_ .f32 0x7FC00000#32))
      = Host.gather gather_S20000x256_S320000x1_S320000x256_1_0_n_n_0_1_1256 a (wrapCol idx) :=
  select_inRange _ _ idx h _ _

theorem take128 (a : FVec F S20000x128 .f32) (idx : IVec S320000 32)
    (h : ∀ e : S320000.Idx, 0 ≤ (idx e).toInt ∧ (idx e).toInt < 20000) :
    select (broadcastInDim S320000x128 ![0] bcast_S320000_S320000x128_0 (inRange idx))
        (Host.gather gather_S20000x128_S320000x1_S320000x128_1_0_n_n_0_1_1128 a (wrapCol idx))
        (broadcastInDim S320000x128 ![] bcast_S_S320000x128 (constant S_ .f32 0x7FC00000#32))
      = Host.gather gather_S20000x128_S320000x1_S320000x128_1_0_n_n_0_1_1128 a (wrapCol idx) :=
  select_inRange _ _ idx h _ _

theorem take64 (a : FVec F S20000x64 .f32) (idx : IVec S320000 32)
    (h : ∀ e : S320000.Idx, 0 ≤ (idx e).toInt ∧ (idx e).toInt < 20000) :
    select (broadcastInDim S320000x64 ![0] bcast_S320000_S320000x64_0 (inRange idx))
        (Host.gather gather_S20000x64_S320000x1_S320000x64_1_0_n_n_0_1_164 a (wrapCol idx))
        (broadcastInDim S320000x64 ![] bcast_S_S320000x64 (constant S_ .f32 0x7FC00000#32))
      = Host.gather gather_S20000x64_S320000x1_S320000x64_1_0_n_n_0_1_164 a (wrapCol idx) :=
  select_inRange _ _ idx h _ _

theorem row_range (ei : IVec S2x320000 32) (h : ∀ i : S2x320000.Idx, 0 ≤ (ei i).toInt ∧ (ei i).toInt < 20000) :
    (∀ e : S320000.Idx,
        0 ≤ ((shapeCast S320000 (extractStridedSlice S1x320000 ![0, 0] ei slices_S2x320000_S1x320000_0_0)
              shapeCasts_S1x320000_S320000) e).toInt
        ∧ ((shapeCast S320000 (extractStridedSlice S1x320000 ![0, 0] ei slices_S2x320000_S1x320000_0_0)
              shapeCasts_S1x320000_S320000) e).toInt < 20000)
    ∧ (∀ e : S320000.Idx,
        0 ≤ ((shapeCast S320000 (extractStridedSlice S1x320000 ![1, 0] ei slices_S2x320000_S1x320000_1_0)
              shapeCasts_S1x320000_S320000) e).toInt
        ∧ ((shapeCast S320000 (extractStridedSlice S1x320000 ![1, 0] ei slices_S2x320000_S1x320000_1_0)
              shapeCasts_S1x320000_S320000) e).toInt < 20000) :=
  ⟨fun _ => h _, fun _ => h _⟩

end Cert.KernelIdeal.Take
-- ==== Proof.KernelIdeal.LinSpec.lean ====
import proofs.«414254_j90761248899606_1_alg».proof.KernelIdeal
import Idealize.ShloMosaic.Lib.ValueIdx
import Idealize.ShloMosaic.PureOps.Ideal

noncomputable section

namespace Cert.KernelIdeal.LinSpec

open Idealize.ShloMosaic Idealize.ShloMosaic.ValueIdx Cert.KernelIdeal

/-! Entry (r, j) of a fused projection is the row r of `x` against the column j of `W`, plus the bias row's entry j; one definition per layer, the extents differ. -/

section
variable (x : FVec Ideal S20000x256 .f32) (W : FVec Ideal S256x1024 .f32) (b : FVec Ideal S1x1024 .f32)

def linAt0 (r : Fin 20000) (j : Fin 1024) : EReal :=
  (∑ k : Fin 256, (x (ix2 r k) : EReal) * (W (ix2 k j) : EReal)) + (b (ix2 (0 : Fin 1) j) : EReal)

def linArr0 : FVec Ideal S20000x1024 .f32 := fun i => linAt0 x W b (i 0) (i 1)

theorem linArr0_apply (r : Fin 20000) (j : Fin 1024) : linArr0 x W b (ix2 r j) = linAt0 x W b r j := rfl
end

section
variable (x : FVec Ideal S20000x256 .f32) (W : FVec Ideal S256x512 .f32) (b : FVec Ideal S1x512 .f32)

def linAt2 (r : Fin 20000) (j : Fin 512) : EReal :=
  (∑ k : Fin 256, (x (ix2 r k) : EReal) * (W (ix2 k j) : EReal)) + (b (ix2 (0 : Fin 1) j) : EReal)

def linArr2 : FVec Ideal S20000x512 .f32 := fun i => linAt2 x W b (i 0) (i 1)

theorem linArr2_apply (r : Fin 20000) (j : Fin 512) : linArr2 x W b (ix2 r j) = linAt2 x W b r j := rfl
end

section
variable (x : FVec Ideal S20000x128 .f32) (W : FVec Ideal S128x256 .f32) (b : FVec Ideal S1x256 .f32)

def linAt4 (r : Fin 20000) (j : Fin 256) : EReal :=
  (∑ k : Fin 128, (x (ix2 r k) : EReal) * (W (ix2 k j) : EReal)) + (b (ix2 (0 : Fin 1) j) : EReal)

def linArr4 : FVec Ideal S20000x256 .f32 := fun i => linAt4 x W b (i 0) (i 1)

theorem linArr4_apply (r : Fin 20000) (j : Fin 256) : linArr4 x W b (ix2 r j) = linAt4 x W b r j := rfl
end

end Cert.KernelIdeal.LinSpec

end
-- ==== Proof.KernelIdeal.Proj1.lean ====
import proofs.«414254_j90761248899606_1_alg».proof.Proof.KernelIdeal.LinSpec
import proofs.«414254_j90761248899606_1_alg».proof.Proof.Gen.KernelIdeal
import proofs.«414254_j90761248899606_1_alg».proof.Proof.Gen.ReferenceIdeal
import Idealize.ShloMosaic.Lib.ValueLayout
import Idealize.ShloMosaic.Lib.IdealHost
import Idealize.ShloMosaic.Lib.StackMember

noncomputable section

namespace Cert.KernelIdeal.Proj

open Idealize.ShloMosaic Idealize.ShloMosaic.ValueIdx

variable {n k d N : Nat} {x : FVec Ideal ⟨2, ![n, k]⟩ .f32} {w0 w1 w2 w3 : FVec Ideal ⟨2, ![k, d]⟩ .f32} {b0 b1 b2 b3 : FVec Ideal ⟨1, ![d]⟩ .f32}
  {hW : Shape.Concatenates (List.replicate 4 ⟨2, ![k, d]⟩) ⟨2, ![k, N]⟩ 1} {hb : Shape.Concatenates (List.replicate 4 ⟨1, ![d]⟩) ⟨1, ![N]⟩ 0}
  {hc : (⟨1, ![N]⟩ : Shape).ShapeCasts ⟨2, ![1, N]⟩} (c : Fin 4) {hs : (⟨2, ![n, N]⟩ : Shape).Slices ![0, c.val * d] ⟨2, ![n, d]⟩}
  {h1 : (⟨1, ![d]⟩ : Shape).BroadcastsInDim ⟨2, ![1, d]⟩ ![1]} {h2 : (⟨2, ![1, d]⟩ : Shape).BroadcastsInDim ⟨2, ![n, d]⟩ ![0, 1]}

/-- Column `c·d + j` of four `k × d` matrices side by side is column `j` of the `c`-th. -/
theorem catW_apply (a : Fin k) (j : Fin d) (J : Fin N) (hJ : J.val = c.val * d + j.val) :
    concatenate ⟨2, ![k, N]⟩ 1 [⟨_, w0⟩, ⟨_, w1⟩, ⟨_, w2⟩, ⟨_, w3⟩] hW (ix2 a J) = ![w0, w1, w2, w3] c (ix2 a j) := by
  refine concatenate_apply_piece (t := ⟨2, ![k, N]⟩) 1 [⟨⟨2, ![k, d]⟩, w0⟩, ⟨_, w1⟩, ⟨_, w2⟩, ⟨_, w3⟩] hW (ix2 a J) c c.isLt _ (![w0, w1, w2, w3] c) ?_ rfl
    (List.replicate c d).sum ?_ (ix2 a j) (fun b hb => match b with | ⟨0, _⟩ => rfl | ⟨1, _⟩ => absurd rfl hb)
    (by rw [List.sum_replicate, smul_eq_mul]; exact hJ.symm)
  all_goals fin_cases c <;> rfl

/-- Entry `c·d + j` of four vectors of length `d` end to end, laid as one row, is entry `j` of the `c`-th. -/
theorem catb_apply (j : Fin d) (J : Fin N) (hJ : J.val = c.val * d + j.val) :
    shapeCast ⟨2, ![1, N]⟩ (concatenate ⟨1, ![N]⟩ 0 [⟨_, b0⟩, ⟨_, b1⟩, ⟨_, b2⟩, ⟨_, b3⟩] hb) hc (ix2 0 J) = ![b0, b1, b2, b3] c (ix1 j) := by
  rw [shapeCast_a_1a_apply]
  refine concatenate_apply_piece (t := ⟨1, ![N]⟩) 0 [⟨⟨1, ![d]⟩, b0⟩, ⟨_, b1⟩, ⟨_, b2⟩, ⟨_, b3⟩] hb (ix1 J) c c.isLt _ (![b0, b1, b2, b3] c) ?_ rfl
    (List.replicate c d).sum ?_ (ix1 j) (fun b hb => match b with | ⟨0, _⟩ => absurd rfl hb)
    (by rw [List.sum_replicate, smul_eq_mul]; exact hJ.symm)
  all_goals fin_cases c <;> rfl

/-- A vector broadcast over the rows, read at an entry. -/
theorem bias_apply (b : FVec Ideal ⟨1, ![d]⟩ .f32) (r : Fin n) (j : Fin d) :
    broadcastInDim ⟨2, ![n, d]⟩ ![0, 1] h2 (broadcastInDim ⟨2, ![1, d]⟩ ![1] h1 b) (ix2 r j) = b (ix1 j) :=
  (broadcastInDim_oneRow_apply h2 _ r j).trans <| broadcastInDim_apply _ _ _ _ (ix1 j) fun a => match a with
    | ⟨0, _⟩ => by show j.val = if d = 1 then 0 else j.val; split <;> omega

/-- The zero scalar broadcast to any shape is 0 everywhere. -/
theorem zero_apply {T : Shape} (h : (⟨0, ![]⟩ : Shape).BroadcastsInDim T ![]) (j : T.Idx) :
    broadcastInDim T ![] h (constant (F := Ideal) ⟨0, ![]⟩ .f32 0x00000000#32) j = 0 :=
  (broadcastInDim_scalar_apply h _ j).trans ((constant_apply _ _).trans Ideal.ofBits_zero_f32)

variable (x w0 w1 w2 w3 b0 b1 b2 b3 hW hb hc) in
/-- `x` times four matrices side by side, plus four vectors end to end as a bias row. -/
def fused : FVec Ideal ⟨2, ![n, N]⟩ .f32 := fun i =>
  (∑ a : Fin k, (x (ix2 (i 0) a) : EReal) * (concatenate ⟨2, ![k, N]⟩ 1 [⟨_, w0⟩, ⟨_, w1⟩, ⟨_, w2⟩, ⟨_, w3⟩] hW (ix2 a (i 1)) : EReal))
    + (shapeCast ⟨2, ![1, N]⟩ (concatenate ⟨1, ![N]⟩ 0 [⟨_, b0⟩, ⟨_, b1⟩, ⟨_, b2⟩, ⟨_, b3⟩] hb) hc (ix2 0 (i 1)) : EReal)

/-- Its `c`-th block of `d` columns is `x` times the `c`-th matrix plus the `c`-th vector. -/
theorem block_apply (r : Fin n) (j : Fin d) :
    extractStridedSlice ⟨2, ![n, d]⟩ ![0, c.val * d] (fused x w0 w1 w2 w3 b0 b1 b2 b3 hW hb hc) hs (ix2 r j)
      = Host.dotGeneral (F := Ideal) (DotDims.plain n k d) none x (![w0, w1, w2, w3] c) (ix2 r j) + ![b0, b1, b2, b3] c (ix1 j) := by
  rw [slice2_axis1_eq, StackMember.dotGeneral_plain_apply]
  exact congrArg₂ (· + ·) (Finset.sum_congr rfl fun a _ => congrArg _ (catW_apply c a j _ rfl)) (catb_apply c j _ rfl)

theorem biased :
    extractStridedSlice ⟨2, ![n, d]⟩ ![0, c.val * d] (fused x w0 w1 w2 w3 b0 b1 b2 b3 hW hb hc) hs
      = addf (Host.dotGeneral (F := Ideal) (DotDims.plain n k d) none x (![w0, w1, w2, w3] c))
          (broadcastInDim ⟨2, ![n, d]⟩ ![0, 1] h2 (broadcastInDim ⟨2, ![1, d]⟩ ![1] h1 (![b0, b1, b2, b3] c))) := by
  funext i
  obtain ⟨r, j, rfl⟩ : ∃ (r : Fin n) (j : Fin d), i = ix2 r j := ⟨i 0, i 1, eq_ix2 i⟩
  rw [addf_apply, bias_apply]
  exact block_apply c r j

theorem unbiased (h0 : ∀ j, ![b0, b1, b2, b3] c j = 0) :
    extractStridedSlice ⟨2, ![n, d]⟩ ![0, c.val * d] (fused x w0 w1 w2 w3 b0 b1 b2 b3 hW hb hc) hs
      = Host.dotGeneral (F := Ideal) (DotDims.plain n k d) none x (![w0, w1, w2, w3] c) := by
  funext i
  obtain ⟨r, j, rfl⟩ : ∃ (r : Fin n) (j : Fin d), i = ix2 r j := ⟨i 0, i 1, eq_ix2 i⟩
  rw [block_apply, h0, add_zero]

end Cert.KernelIdeal.Proj

namespace Cert.KernelIdeal.Proj1

open Idealize.ShloMosaic Cert.KernelIdeal Cert.KernelIdeal.Gen Cert.KernelIdeal.LinSpec

def Wcat (w0 w1 w2 w3 : FVec Ideal S256x256 .f32) : FVec Ideal S256x1024 .f32 :=
  concatenate S256x1024 1 [⟨S256x256, w0⟩, ⟨S256x256, w1⟩, ⟨S256x256, w2⟩, ⟨S256x256, w3⟩] concatenates_S256x256_S256x256_S256x256_S256x256_S256x1024_d1

def bcat (b0 b1 b2 : FVec Ideal S256 .f32) : FVec Ideal S1x1024 .f32 :=
  shapeCast S1x1024 (concatenate S1024 0 [⟨S256, b0⟩, ⟨S256, b1⟩, ⟨S256, b2⟩, ⟨S256, broadcastInDim S256 ![] bcast_S_S256 (constant (F := Ideal) S_ .f32 0x00000000#32)⟩] concatenates_S256_S256_S256_S256_S1024_d0) shapeCasts_S1024_S1x1024

variable (x : FVec Ideal S20000x256 .f32) (w0 w1 w2 w3 : FVec Ideal S256x256 .f32) (b0 b1 b2 : FVec Ideal S256 .f32)

theorem proj_k :
    extractStridedSlice S20000x256 ![0, 0] (linArr0 x (Wcat w0 w1 w2 w3) (bcat b0 b1 b2)) slices_S20000x1024_S20000x256_0_0
      = addf (Host.dotGeneral (F := Ideal) Cert.ReferenceIdeal.dot_S20000x256_S256x256_S20000x256_1_0_0_1_n_n none x w0)
          (broadcastInDim S20000x256 ![0, 1] bcast_S1x256_S20000x256_0_1 (broadcastInDim S1x256 ![1] bcast_S256_S1x256_1 b0)) :=
  Proj.biased 0

theorem proj_q :
    extractStridedSlice S20000x256 ![0, 256] (linArr0 x (Wcat w0 w1 w2 w3) (bcat b0 b1 b2)) slices_S20000x1024_S20000x256_0_256
      = addf (Host.dotGeneral (F := Ideal) Cert.ReferenceIdeal.dot_S20000x256_S256x256_S20000x256_1_0_0_1_n_n none x w1)
          (broadcastInDim S20000x256 ![0, 1] bcast_S1x256_S20000x256_0_1 (broadcastInDim S1x256 ![1] bcast_S256_S1x256_1 b1)) :=
  Proj.biased 1

theorem proj_v :
    extractStridedSlice S20000x256 ![0, 512] (linArr0 x (Wcat w0 w1 w2 w3) (bcat b0 b1 b2)) slices_S20000x1024_S20000x256_0_512
      = addf (Host.dotGeneral (F := Ideal) Cert.ReferenceIdeal.dot_S20000x256_S256x256_S20000x256_1_0_0_1_n_n none x w2)
          (broadcastInDim S20000x256 ![0, 1] bcast_S1x256_S20000x256_0_1 (broadcastInDim S1x256 ![1] bcast_S256_S1x256_1 b2)) :=
  Proj.biased 2

theorem proj_skip :
    extractStridedSlice S20000x256 ![0, 768] (linArr0 x (Wcat w0 w1 w2 w3) (bcat b0 b1 b2)) slices_S20000x1024_S20000x256_0_768
      = Host.dotGeneral (F := Ideal) Cert.ReferenceIdeal.dot_S20000x256_S256x256_S20000x256_1_0_0_1_n_n none x w3 :=
  Proj.unbiased 3 (Proj.zero_apply bcast_S_S256)

end Cert.KernelIdeal.Proj1

end
-- ==== Proof.KernelIdeal.Proj2.lean ====
import proofs.«414254_j90761248899606_1_alg».proof.Proof.KernelIdeal.Proj1

noncomputable section

namespace Cert.KernelIdeal.Proj2

open Idealize.ShloMosaic Cert.KernelIdeal Cert.KernelIdeal.Gen Cert.KernelIdeal.LinSpec

def Wcat (w0 w1 w2 w3 : FVec Ideal S256x128 .f32) : FVec Ideal S256x512 .f32 :=
  concatenate S256x512 1 [⟨S256x128, w0⟩, ⟨S256x128, w1⟩, ⟨S256x128, w2⟩, ⟨S256x128, w3⟩] concatenates_S256x128_S256x128_S256x128_S256x128_S256x512_d1

def bcat (b0 b1 b2 : FVec Ideal S128 .f32) : FVec Ideal S1x512 .f32 :=
  shapeCast S1x512 (concatenate S512 0 [⟨S128, b0⟩, ⟨S128, b1⟩, ⟨S128, b2⟩, ⟨S128, broadcastInDim S128 ![] bcast_S_S128 (constant (F := Ideal) S_ .f32 0x00000000#32)⟩] concatenates_S128_S128_S128_S128_S512_d0) shapeCasts_S512_S1x512

variable (x : FVec Ideal S20000x256 .f32) (w0 w1 w2 w3 : FVec Ideal S256x128 .f32) (b0 b1 b2 : FVec Ideal S128 .f32)

theorem proj_k :
    extractStridedSlice S20000x128 ![0, 0] (linArr2 x (Wcat w0 w1 w2 w3) (bcat b0 b1 b2)) slices_S20000x512_S20000x128_0_0
      = addf (Host.dotGeneral (F := Ideal) Cert.ReferenceIdeal.dot_S20000x256_S256x128_S20000x128_1_0_0_1_n_n none x w0)
          (broadcastInDim S20000x128 ![0, 1] bcast_S1x128_S20000x128_0_1 (broadcastInDim S1x128 ![1] bcast_S128_S1x128_1 b0)) :=
  Proj.biased 0

theorem proj_q :
    extractStridedSlice S20000x128 ![0, 128] (linArr2 x (Wcat w0 w1 w2 w3) (bcat b0 b1 b2)) slices_S20000x512_S20000x128_0_128
      = addf (Host.dotGeneral (F := Ideal) Cert.ReferenceIdeal.dot_S20000x256_S256x128_S20000x128_1_0_0_1_n_n none x w1)
          (broadcastInDim S20000x128 ![0, 1] bcast_S1x128_S20000x128_0_1 (broadcastInDim S1x128 ![1] bcast_S128_S1x128_1 b1)) :=
  Proj.biased 1

theorem proj_v :
    extractStridedSlice S20000x128 ![0, 256] (linArr2 x (Wcat w0 w1 w2 w3) (bcat b0 b1 b2)) slices_S20000x512_S20000x128_0_256
      = addf (Host.dotGeneral (F := Ideal) Cert.ReferenceIdeal.dot_S20000x256_S256x128_S20000x128_1_0_0_1_n_n none x w2)
          (broadcastInDim S20000x128 ![0, 1] bcast_S1x128_S20000x128_0_1 (broadcastInDim S1x128 ![1] bcast_S128_S1x128_1 b2)) :=
  Proj.biased 2

theorem proj_skip :
    extractStridedSlice S20000x128 ![0, 384] (linArr2 x (Wcat w0 w1 w2 w3) (bcat b0 b1 b2)) slices_S20000x512_S20000x128_0_384
      = Host.dotGeneral (F := Ideal) Cert.ReferenceIdeal.dot_S20000x256_S256x128_S20000x128_1_0_0_1_n_n none x w3 :=
  Proj.unbiased 3 (Proj.zero_apply bcast_S_S128)

end Cert.KernelIdeal.Proj2

end
-- ==== Proof.KernelIdeal.Proj3.lean ====
import proofs.«414254_j90761248899606_1_alg».proof.Proof.KernelIdeal.Proj1

noncomputable section

namespace Cert.KernelIdeal.Proj3

open Idealize.ShloMosaic Cert.KernelIdeal Cert.KernelIdeal.Gen Cert.KernelIdeal.LinSpec

def Wcat (w0 w1 w2 w3 : FVec Ideal S128x64 .f32) : FVec Ideal S128x256 .f32 :=
  concatenate S128x256 1 [⟨S128x64, w0⟩, ⟨S128x64, w1⟩, ⟨S128x64, w2⟩, ⟨S128x64, w3⟩] concatenates_S128x64_S128x64_S128x64_S128x64_S128x256_d1

def bcat (b0 b1 b2 : FVec Ideal S64 .f32) : FVec Ideal S1x256 .f32 :=
  shapeCast S1x256 (concatenate S256 0 [⟨S64, b0⟩, ⟨S64, b1⟩, ⟨S64, b2⟩, ⟨S64, broadcastInDim S64 ![] bcast_S_S64 (constant (F := Ideal) S_ .f32 0x00000000#32)⟩] concatenates_S64_S64_S64_S64_S256_d0) shapeCasts_S256_S1x256

variable (x : FVec Ideal S20000x128 .f32) (w0 w1 w2 w3 : FVec Ideal S128x64 .f32) (b0 b1 b2 : FVec Ideal S64 .f32)

theorem proj_k :
    extractStridedSlice S20000x64 ![0, 0] (linArr4 x (Wcat w0 w1 w2 w3) (bcat b0 b1 b2)) slices_S20000x256_S20000x64_0_0
      = addf (Host.dotGeneral (F := Ideal) Cert.ReferenceIdeal.dot_S20000x128_S128x64_S20000x64_1_0_0_1_n_n none x w0)
          (broadcastInDim S20000x64 ![0, 1] bcast_S1x64_S20000x64_0_1 (broadcastInDim S1x64 ![1] bcast_S64_S1x64_1 b0)) :=
  Proj.biased 0

theorem proj_q :
    extractStridedSlice S20000x64 ![0, 64] (linArr4 x (Wcat w0 w1 w2 w3) (bcat b0 b1 b2)) slices_S20000x256_S20000x64_0_64
      = addf (Host.dotGeneral (F := Ideal) Cert.ReferenceIdeal.dot_S20000x128_S128x64_S20000x64_1_0_0_1_n_n none x w1)
          (broadcastInDim S20000x64 ![0, 1] bcast_S1x64_S20000x64_0_1 (broadcastInDim S1x64 ![1] bcast_S64_S1x64_1 b1)) :=
  Proj.biased 1

theorem proj_v :
    extractStridedSlice S20000x64 ![0, 128] (linArr4 x (Wcat w0 w1 w2 w3) (bcat b0 b1 b2)) slices_S20000x256_S20000x64_0_128
      = addf (Host.dotGeneral (F := Ideal) Cert.ReferenceIdeal.dot_S20000x128_S128x64_S20000x64_1_0_0_1_n_n none x w2)
          (broadcastInDim S20000x64 ![0, 1] bcast_S1x64_S20000x64_0_1 (broadcastInDim S1x64 ![1] bcast_S64_S1x64_1 b2)) :=
  Proj.biased 2

theorem proj_skip :
    extractStridedSlice S20000x64 ![0, 192] (linArr4 x (Wcat w0 w1 w2 w3) (bcat b0 b1 b2)) slices_S20000x256_S20000x64_0_192
      = Host.dotGeneral (F := Ideal) Cert.ReferenceIdeal.dot_S20000x128_S128x64_S20000x64_1_0_0_1_n_n none x w3 :=
  Proj.unbiased 3 (Proj.zero_apply bcast_S_S64)

end Cert.KernelIdeal.Proj3

end
-- ==== Proof.KernelIdeal.Reads.lean ====
import proofs.«414254_j90761248899606_1_alg».proof.Proof.KernelIdeal.Vals
import proofs.«414254_j90761248899606_1_alg».proof.Proof.KernelIdeal.Take
import proofs.«414254_j90761248899606_1_alg».proof.Proof.KernelIdeal.Proj1
import proofs.«414254_j90761248899606_1_alg».proof.Proof.KernelIdeal.Proj2
import proofs.«414254_j90761248899606_1_alg».proof.Proof.KernelIdeal.Proj3
import proofs.«414254_j90761248899606_1_alg».proof.Proof.RefSide

noncomputable section

namespace Cert.KernelIdeal.Body

open Idealize.ShloMosaic Idealize.ShloMosaic.TcCoe Idealize.ShloMosaic.StableHlo
open Cert.KernelIdeal.Gen Cert.KernelIdeal.GenP

def srcOf (ei : IVec S2x320000 32) : IVec S320000 32 :=
  shapeCast S320000 (extractStridedSlice S1x320000 ![0, 0] ei slices_S2x320000_S1x320000_0_0) shapeCasts_S1x320000_S320000

def dstOf (ei : IVec S2x320000 32) : IVec S320000 32 :=
  shapeCast S320000 (extractStridedSlice S1x320000 ![1, 0] ei slices_S2x320000_S1x320000_1_0) shapeCasts_S1x320000_S320000

def take256 (a : FVec Ideal S20000x256 .f32) (idx : IVec S320000 32) : FVec Ideal S320000x256 .f32 :=
  select (broadcastInDim S320000x256 ![0] bcast_S320000_S320000x256_0 (Take.inRange idx))
    (Host.gather gather_S20000x256_S320000x1_S320000x256_1_0_n_n_0_1_1256 a (Take.wrapCol idx))
    (broadcastInDim S320000x256 ![] bcast_S_S320000x256 (constant (F := Ideal) S_ .f32 0x7FC00000#32))

def take128 (a : FVec Ideal S20000x128 .f32) (idx : IVec S320000 32) : FVec Ideal S320000x128 .f32 :=
  select (broadcastInDim S320000x128 ![0] bcast_S320000_S320000x128_0 (Take.inRange idx))
    (Host.gather gather_S20000x128_S320000x1_S320000x128_1_0_n_n_0_1_1128 a (Take.wrapCol idx))
    (broadcastInDim S320000x128 ![] bcast_S_S320000x128 (constant (F := Ideal) S_ .f32 0x7FC00000#32))

def take64 (a : FVec Ideal S20000x64 .f32) (idx : IVec S320000 32) : FVec Ideal S320000x64 .f32 :=
  select (broadcastInDim S320000x64 ![0] bcast_S320000_S320000x64_0 (Take.inRange idx))
    (Host.gather gather_S20000x64_S320000x1_S320000x64_1_0_n_n_0_1_164 a (Take.wrapCol idx))
    (broadcastInDim S320000x64 ![] bcast_S_S320000x64 (constant (F := Ideal) S_ .f32 0x7FC00000#32))

theorem upd_ne (V : Valuation τ sig (Elt Ideal)) {r y : Ref sig .tc} (o : (y : DevRef τ sig).ty.Contents (Elt Ideal)) (h : r ≠ y) :
    Function.update V (no_index (y : DevRef τ sig)) o (no_index (r : DevRef τ sig)) = V (r : DevRef τ sig) :=
  Function.update_of_ne (devRef_ne_of_ne h) _ _

theorem upd_self (V : Valuation τ sig (Elt Ideal)) (y : Ref sig .tc) (o : (y : DevRef τ sig).ty.Contents (Elt Ideal)) :
    Function.update V (no_index (y : DevRef τ sig)) o (no_index (y : DevRef τ sig)) = o := Function.update_self _ _ _

theorem ofBuf_toBuf {Val : EltTy → Type} {T : BufTy} (x : TRef sig T) (v : T.Contents Val) : x.ofBuf (x.toBuf v) = v := by
  obtain ⟨r, rfl, _, _⟩ := x
  rfl

variable (m : (ℓ : Loc nD τ sig) → Buf (Elt Ideal) ℓ) (c : Dev nD)

abbrev M (r : Ref sig .tc) : Buf (Elt Ideal) ((c : Thread nD τ).loc r) := m ((c : Thread nD τ).loc r)

theorem W0_at (r : Ref sig .tc) : W0 m c (no_index (r : DevRef τ sig)) = M m c r := rfl

macro "read_boundary" : tactic => `(tactic| simp (disch := decide) only [VR, W1, W2, W3, W4, W5, W6, W7, W8, W9, W10, W11, W12, W13, W14, W15, W16, W17, W18, W19, W20, W21, W22,
  W0_at, upd_self, upd_ne, after_cons, after_nil, nullary_result', unary_result', binary_result', ternary_result', quaternary_result', reshape_result',
  nary4_result', nary_result', unaryIndexed_result', binaryIndexed_result', nullary_result_ne', unary_result_ne', binary_result_ne', ternary_result_ne',
  quaternary_result_ne', reshape_result_ne', nary_result_ne', unaryIndexed_result_ne', binaryIndexed_result_ne', ofBuf_toBuf, TRef.ofBuf, TRef.toBuf, cast_eq] <;> rfl)

theorem W1_arg0 : VR (W1 m) c main_arg0 = M m c main_arg0 := by
  read_boundary
theorem W1_v4 : VR (W1 m) c main_v4 = Proj1.Wcat (M m c main_arg2) (M m c main_arg4) (M m c main_arg6) (M m c main_arg20) := by
  read_boundary
theorem W1_v7 : VR (W1 m) c main_v7 = Proj1.bcat (M m c main_arg3) (M m c main_arg5) (M m c main_arg7) := by
  read_boundary
theorem W6_v13 : VR (W6 m) c main_v13 = take256 (extractStridedSlice S20000x256 ![0, 0] (o2 m c : FVec Ideal S20000x1024 .f32) slices_S20000x1024_S20000x256_0_0) (dstOf (M m c main_arg1)) := by
  read_boundary
theorem W6_v14 : VR (W6 m) c main_v14 = take256 (extractStridedSlice S20000x256 ![0, 256] (o2 m c : FVec Ideal S20000x1024 .f32) slices_S20000x1024_S20000x256_0_256) (srcOf (M m c main_arg1)) := by
  read_boundary
theorem W6_v15 : VR (W6 m) c main_v15 = take256 (extractStridedSlice S20000x256 ![0, 512] (o2 m c : FVec Ideal S20000x1024 .f32) slices_S20000x1024_S20000x256_0_512) (srcOf (M m c main_arg1)) := by
  read_boundary
theorem W8_v23 : VR (W8 m) c main_v23 = addf (addf (extractStridedSlice S20000x256 ![0, 768] (o2 m c : FVec Ideal S20000x1024 .f32) slices_S20000x1024_S20000x256_0_768) (Host.scatterAdd scatter_S20000x256_S320000x1_S320000x256_1_0_0_1 (broadcastInDim S20000x256 ![] bcast_S_S20000x256 (constant (F := Ideal) S_ .f32 0x00000000#32)) (broadcastInDim S320000x1 ![0] bcast_S320000_S320000x1_0 (dstOf (M m c main_arg1))) (o7 m c))) (broadcastInDim S20000x256 ![0, 1] bcast_S1x256_S20000x256_0_1 (broadcastInDim S1x256 ![1] bcast_S256_S1x256_1 (M m c main_arg21))) := by
  read_boundary
theorem W8_v24 : VR (W8 m) c main_v24 = Proj2.Wcat (M m c main_arg8) (M m c main_arg10) (M m c main_arg12) (M m c main_arg22) := by
  read_boundary
theorem W8_v27 : VR (W8 m) c main_v27 = Proj2.bcat (M m c main_arg9) (M m c main_arg11) (M m c main_arg13) := by
  read_boundary
theorem W13_v33 : VR (W13 m) c main_v33 = take128 (extractStridedSlice S20000x128 ![0, 0] (o9 m c : FVec Ideal S20000x512 .f32) slices_S20000x512_S20000x128_0_0) (dstOf (M m c main_arg1)) := by
  read_boundary
theorem W13_v34 : VR (W13 m) c main_v34 = take128 (extractStridedSlice S20000x128 ![0, 128] (o9 m c : FVec Ideal S20000x512 .f32) slices_S20000x512_S20000x128_0_128) (srcOf (M m c main_arg1)) := by
  read_boundary
theorem W13_v35 : VR (W13 m) c main_v35 = take128 (extractStridedSlice S20000x128 ![0, 256] (o9 m c : FVec Ideal S20000x512 .f32) slices_S20000x512_S20000x128_0_256) (srcOf (M m c main_arg1)) := by
  read_boundary
theorem W15_v43 : VR (W15 m) c main_v43 = addf (addf (extractStridedSlice S20000x128 ![0, 384] (o9 m c : FVec Ideal S20000x512 .f32) slices_S20000x512_S20000x128_0_384) (Host.scatterAdd scatter_S20000x128_S320000x1_S320000x128_1_0_0_1 (broadcastInDim S20000x128 ![] bcast_S_S20000x128 (constant (F := Ideal) S_ .f32 0x00000000#32)) (broadcastInDim S320000x1 ![0] bcast_S320000_S320000x1_0 (dstOf (M m c main_arg1))) (o14 m c))) (broadcastInDim S20000x128 ![0, 1] bcast_S1x128_S20000x128_0_1 (broadcastInDim S1x128 ![1] bcast_S128_S1x128_1 (M m c main_arg23))) := by
  read_boundary
theorem W15_v44 : VR (W15 m) c main_v44 = Proj3.Wcat (M m c main_arg14) (M m c main_arg16) (M m c main_arg18) (M m c main_arg24) := by
  read_boundary
theorem W15_v47 : VR (W15 m) c main_v47 = Proj3.bcat (M m c main_arg15) (M m c main_arg17) (M m c main_arg19) := by
  read_boundary
theorem W20_v53 : VR (W20 m) c main_v53 = take64 (extractStridedSlice S20000x64 ![0, 0] (o16 m c : FVec Ideal S20000x256 .f32) slices_S20000x256_S20000x64_0_0) (dstOf (M m c main_arg1)) := by
  read_boundary
theorem W20_v54 : VR (W20 m) c main_v54 = take64 (extractStridedSlice S20000x64 ![0, 64] (o16 m c : FVec Ideal S20000x256 .f32) slices_S20000x256_S20000x64_0_64) (srcOf (M m c main_arg1)) := by
  read_boundary
theorem W20_v55 : VR (W20 m) c main_v55 = take64 (extractStridedSlice S20000x64 ![0, 128] (o16 m c : FVec Ideal S20000x256 .f32) slices_S20000x256_S20000x64_0_128) (srcOf (M m c main_arg1)) := by
  read_boundary
theorem W22_v74 : W22 m c main_v74 = Cert.RefSide.refSoftmax (addf (addf (extractStridedSlice S20000x64 ![0, 192] (o16 m c : FVec Ideal S20000x256 .f32) slices_S20000x256_S20000x64_0_192) (Host.scatterAdd scatter_S20000x64_S320000x1_S320000x64_1_0_0_1 (broadcastInDim S20000x64 ![] bcast_S_S20000x64 (constant (F := Ideal) S_ .f32 0x00000000#32)) (broadcastInDim S320000x1 ![0] bcast_S320000_S320000x1_0 (dstOf (M m c main_arg1))) (o21 m c))) (broadcastInDim S20000x64 ![0, 1] bcast_S1x64_S20000x64_0_1 (broadcastInDim S1x64 ![1] bcast_S64_S1x64_1 (M m c main_arg25)))) := by
  read_boundary

end Cert.KernelIdeal.Body

end
-- ==== Proof.KernelIdeal.BlockVal.lean ====
import Idealize.ShloMosaic.Lib.Pipeline.Value
import Idealize.ShloMosaic.Lib.ValueLayout
import Idealize.ShloMosaic.Lib.StackMember
import Idealize.ShloMosaic.Lib.KernelVsHost
import Idealize.ShloMosaic.Lib.IdealHost
import Idealize.ShloMosaic.PureOps.Ideal.Laws

noncomputable section

namespace Cert.KernelIdeal.BlockVal

open Idealize.ShloMosaic Idealize.ShloMosaic.ValueIdx

variable {M m k n : Nat}

theorem zero_off : (![0, 0] : Fin 2 → Nat) = fun _ => 0 := funext fun a => by fin_cases a <;> rfl

/-- `e` sets a block of sizes `sz` down at block index `ix`: its coordinate `y a` lands at `ix a * sz a + y a`. -/
def SetAt {sz SZ : Fin 2 → Nat} (e : (⟨2, sz⟩ : Shape).Idx → (⟨2, SZ⟩ : Shape).Idx) (ix : Fin 2 → Nat) : Prop :=
  ∀ y a, (e y a).val = ix a * sz a + 1 * (y a).val

/-- At block index (o, 0) a block's rows move down `o` blocks and its columns stay. -/
theorem SetAt.eq {sz SZ : Fin 2 → Nat} {e : (⟨2, sz⟩ : Shape).Idx → (⟨2, SZ⟩ : Shape).Idx} {o : Nat} (h : SetAt e ![o, 0])
    (y : (⟨2, sz⟩ : Shape).Idx) : (e y 0).val = o * sz 0 + (y 0).val ∧ (e y 1).val = (y 1).val :=
  ⟨(h y 0).trans (by show o * _ + 1 * _ = _; omega), (h y 1).trans (by show 0 * _ + 1 * _ = _; omega)⟩

/-- A bias row added to a block product: the product sums over the contracted axis, the row is read at the column. -/
theorem pay_at (hb : (⟨2, ![1, n]⟩ : Shape).Broadcasts ⟨2, ![m, n]⟩) (h0 h1 : FTy.bits .bf16 < FTy.bits .f32)
    (x0 : FVec Ideal ⟨2, ![m, k]⟩ .f32) (x1 : FVec Ideal ⟨2, ![k, n]⟩ .f32) (x2 : FVec Ideal ⟨2, ![1, n]⟩ .f32) (p : Fin m) (q : Fin n) :
    addf (matmul (DotDims.plain m k n) none (truncf .bf16 x0 h0) (truncf .bf16 x1 h1) (constant (F := Ideal) ⟨2, ![m, n]⟩ .f32 0x00000000#32))
        (broadcastTo ⟨2, ![m, n]⟩ x2 hb) (ix2 p q)
      = (∑ c : Fin k, x0 (ix2 p c) * x1 (ix2 c q)) + x2 (ix2 (0 : Fin 1) q) := by
  rw [addf_apply, matmul_zero_eq_dotGeneral, StackMember.dotGeneral_plain_apply, broadcastTo_1b_ab_apply]
  rfl

/-- Block `o` of `m` rows of a projection: over rows `o·m …` of `x` and the whole weights and bias row, entry `y` of the block's value is the projection's entry at `e3 y`. -/
theorem lin_entry {pay : FVec Ideal ⟨2, ![m, k]⟩ .f32 → FVec Ideal ⟨2, ![k, n]⟩ .f32 → FVec Ideal ⟨2, ![1, n]⟩ .f32 → FVec Ideal ⟨2, ![m, n]⟩ .f32}
    (hpay : ∀ x0 x1 x2 p q, pay x0 x1 x2 (ix2 p q) = (∑ c : Fin k, x0 (ix2 p c) * x1 (ix2 c q)) + x2 (ix2 (0 : Fin 1) q))
    (x : FVec Ideal ⟨2, ![M, k]⟩ .f32) (W : FVec Ideal ⟨2, ![k, n]⟩ .f32) (b : FVec Ideal ⟨2, ![1, n]⟩ .f32)
    (e0 : (⟨2, ![m, k]⟩ : Shape).Idx → (⟨2, ![M, k]⟩ : Shape).Idx) (e1 : (⟨2, ![k, n]⟩ : Shape).Idx → (⟨2, ![k, n]⟩ : Shape).Idx)
    (e2 : (⟨2, ![1, n]⟩ : Shape).Idx → (⟨2, ![1, n]⟩ : Shape).Idx) (e3 : (⟨2, ![m, n]⟩ : Shape).Idx → (⟨2, ![M, n]⟩ : Shape).Idx)
    {i0 i1 i2 i3 : Fin 2 → Nat} {o : Nat} (hi : i0 = ![o, 0] ∧ i1 = ![0, 0] ∧ i2 = ![0, 0] ∧ i3 = ![o, 0])
    (he0 : SetAt e0 i0) (he1 : SetAt e1 i1) (he2 : SetAt e2 i2) (he3 : SetAt e3 i3) (y : (⟨2, ![m, n]⟩ : Shape).Idx) :
    pay (fun j => x (e0 j)) (fun j => W (e1 j)) (fun j => b (e2 j)) y
      = (∑ c : Fin k, x (ix2 (e3 y 0) c) * W (ix2 c (e3 y 1))) + b (ix2 (0 : Fin 1) (e3 y 1)) := by
  obtain ⟨rfl, rfl, rfl, rfl⟩ := hi
  obtain ⟨p, q, rfl⟩ : ∃ (p : Fin m) (q : Fin n), y = ix2 p q := ⟨y 0, y 1, eq_ix2 y⟩
  have a3 : (e3 (ix2 p q) 0).val = o * m + p.val ∧ (e3 (ix2 p q) 1).val = q.val := he3.eq _
  have a2 : (e2 (ix2 0 q) 0).val = 0 * 1 + 0 ∧ (e2 (ix2 0 q) 1).val = q.val := he2.eq _
  rw [hpay]
  refine congrArg₂ (· + ·) (Finset.sum_congr rfl fun c _ => ?_)
    (congrArg b (Shape.idx_ext₂ (show (e2 (ix2 0 q) 0).val = 0 by omega) (show (e2 (ix2 0 q) 1).val = (e3 (ix2 p q) 1).val by omega)))
  have a0 : (e0 (ix2 p c) 0).val = o * m + p.val ∧ (e0 (ix2 p c) 1).val = c.val := he0.eq _
  have a1 : (e1 (ix2 c q) 0).val = 0 * k + c.val ∧ (e1 (ix2 c q) 1).val = q.val := he1.eq _
  exact congrArg₂ (· * ·)
    (congrArg x (Shape.idx_ext₂ (show (e0 (ix2 p c) 0).val = (e3 (ix2 p q) 0).val by omega) (show (e0 (ix2 p c) 1).val = c.val by omega)))
    (congrArg W (Shape.idx_ext₂ (show (e1 (ix2 c q) 0).val = c.val by omega) (show (e1 (ix2 c q) 1).val = (e3 (ix2 p q) 1).val by omega)))

/-- The gate of three arrays: 1 / (1 + exp (−(a + b))) · v, the ones a broadcast scalar. -/
abbrev gate {s : Shape} (hb : (⟨0, ![]⟩ : Shape).BroadcastsInDim s ![]) (a b v : FVec Ideal s .f32) : FVec Ideal s .f32 :=
  mulf (Host.divf (broadcastInDim s ![] hb (constant (F := Ideal) ⟨0, ![]⟩ .f32 0x3F800000#32))
    (addf (broadcastInDim s ![] hb (constant (F := Ideal) ⟨0, ![]⟩ .f32 0x3F800000#32)) (Host.exp (Host.negf (addf a b))))) v

/-- At an index the gate is the logistic of the sum of the first two entries times the third. -/
theorem gate_apply {s : Shape} (hb : (⟨0, ![]⟩ : Shape).BroadcastsInDim s ![]) (a b v : FVec Ideal s .f32) (i : s.Idx) :
    gate hb a b v i = Ideal.logistic (a i + b i) * v i := by
  show Ideal.div (broadcastInDim s ![] hb (constant (F := Ideal) ⟨0, ![]⟩ .f32 0x3F800000#32) i)
      (broadcastInDim s ![] hb (constant (F := Ideal) ⟨0, ![]⟩ .f32 0x3F800000#32) i + Ideal.exp (-(a i + b i))) * v i = _
  rw [broadcastInDim_scalar_apply, constant_apply, Ideal.ofBits_one_f32]
  rfl

/-- Block `o` of `m` rows of a gate: over rows `o·m …` of the three arrays, entry `y` of the block's value is the gate's entry at `e3 y`. -/
theorem gate_entry {pay : FVec Ideal ⟨2, ![m, n]⟩ .f32 → FVec Ideal ⟨2, ![m, n]⟩ .f32 → FVec Ideal ⟨2, ![m, n]⟩ .f32 → FVec Ideal ⟨2, ![m, n]⟩ .f32}
    (hpay : ∀ x0 x1 x2 j, pay x0 x1 x2 j = Ideal.logistic (x0 j + x1 j) * x2 j)
    (hb : (⟨0, ![]⟩ : Shape).BroadcastsInDim ⟨2, ![M, n]⟩ ![]) (a b v : FVec Ideal ⟨2, ![M, n]⟩ .f32)
    (e0 e1 e2 e3 : (⟨2, ![m, n]⟩ : Shape).Idx → (⟨2, ![M, n]⟩ : Shape).Idx)
    {i0 i1 i2 i3 : Fin 2 → Nat} {o : Nat} (hi : i0 = ![o, 0] ∧ i1 = ![o, 0] ∧ i2 = ![o, 0] ∧ i3 = ![o, 0])
    (he0 : SetAt e0 i0) (he1 : SetAt e1 i1) (he2 : SetAt e2 i2) (he3 : SetAt e3 i3) (y : (⟨2, ![m, n]⟩ : Shape).Idx) :
    pay (fun j => a (e0 j)) (fun j => b (e1 j)) (fun j => v (e2 j)) y = gate hb a b v (e3 y) := by
  obtain ⟨rfl, rfl, rfl, rfl⟩ := hi
  have a0 := he0.eq y; have a1 := he1.eq y; have a2 := he2.eq y; have a3 := he3.eq y
  rw [hpay, gate_apply, show e0 y = e3 y from Shape.idx_ext₂ (by omega) (by omega),
    show e1 y = e3 y from Shape.idx_ext₂ (by omega) (by omega), show e2 y = e3 y from Shape.idx_ext₂ (by omega) (by omega)]

/-- Blocks of `bm` rows, block `t` at rows `t·bm …`, cover an array of at most `N·bm` rows. -/
theorem row_tile {N : Nat} (bm : Nat) (hM : M ≤ N * bm) (ix : Fin N → Fin 2 → Nat) (hix : ∀ t, ix t = ![t.val, 0])
    (i : (⟨2, ![M, n]⟩ : Shape).Idx) :
    ∃ t : Fin N, ∀ a : Fin 2, ix t a * (![bm, n] : Fin 2 → Nat) a ≤ (i a).val ∧ (i a).val < ix t a * (![bm, n] : Fin 2 → Nat) a + (![bm, n] : Fin 2 → Nat) a := by
  have hi0 : (i 0).val < M := (i 0).isLt
  have hi1 : (i 1).val < n := (i 1).isLt
  have hb : 0 < bm := Nat.pos_of_ne_zero fun h => by subst h; omega
  have hlt : (i 0).val / bm < N := (Nat.div_lt_iff_lt_mul hb).2 (by omega)
  refine ⟨⟨(i 0).val / bm, hlt⟩, fun a => ?_⟩
  rw [hix]
  have hd := Nat.div_add_mod (i 0).val bm
  have hm := Nat.mod_lt (i 0).val hb
  match a with
  | ⟨0, _⟩ =>
    show (i 0).val / bm * bm ≤ (i 0).val ∧ (i 0).val < (i 0).val / bm * bm + bm
    rw [Nat.mul_comm]; omega
  | ⟨1, _⟩ =>
    show 0 * n ≤ (i 1).val ∧ (i 1).val < 0 * n + n
    omega

end Cert.KernelIdeal.BlockVal

end
-- ==== Proof.KernelIdeal.LinVal0.lean ====
import proofs.«414254_j90761248899606_1_alg».proof.Proof.KernelIdeal.Region0
import proofs.«414254_j90761248899606_1_alg».proof.Proof.KernelIdeal.LinSpec
import proofs.«414254_j90761248899606_1_alg».proof.Proof.KernelIdeal.BlockVal

noncomputable section

namespace Cert.KernelIdeal.LinVal0

open Idealize.ShloMosaic Idealize.ShloMosaic.TcCoe
open Cert.KernelIdeal.Gen Cert.KernelIdeal.GenP Cert.KernelIdeal.Body Cert.KernelIdeal.LinSpec Cert.KernelIdeal.BlockVal

theorem idx_facts : ∀ t : Fin cfg0.N, win0_0.index t = ![t.val, 0] ∧ win0_1.index t = ![0, 0] ∧ win0_2.index t = ![0, 0] ∧ win0_3.index t = ![t.val, 0] :=
  (by decide +kernel : ∀ t : Fin grid0.N, _)

variable (V : (c : Dev nD) → (b : Ref sig .tc) → Buf (Elt Ideal) ((c : Thread nD τ).loc b))

/-- Block t of the result is block t of the projection, and the twenty blocks of 1000 rows tile the array. -/
theorem lin0_arr (c : Dev nD) :
    (dat0 (F := Ideal) V c).arrAt 3 cfg0.N = linArr0 (V c main_arg0) (V c main_v4) (V c main_v7) := by
  refine (dat0 (F := Ideal) V c).arrAt_eq_of_cover 3 _ (fun t _ => ?_) fun i => ?_
  · show (cfg0.win 3).cut (grid0.coords t) ((dat0 (F := Ideal) V c).after 3 t) = _
    rw [after0_3]
    unfold out0_3
    rw [View.canon_unit_zero zero_off]
    simp only [View.ld_unit_zero (S := S1000x256) zero_off, View.ld_unit_zero (S := S256x1024) zero_off, View.ld_unit_zero (S := S1x1024) zero_off]
    funext y
    exact lin_entry (pay := k0_pay1 (F := Ideal)) (fun x0 x1 x2 p q => by unfold k0_pay1; simp only [shapeCast_self]; exact pay_at _ _ _ x0 x1 x2 p q)
      (V c main_arg0) (V c main_v4) (V c main_v7) ((cfg0.win 0).blk t).view.emb ((cfg0.win 1).blk t).view.emb ((cfg0.win 2).blk t).view.emb
      ((cfg0.win 3).blk t).view.emb (idx_facts t) (fun _ _ => rfl) (fun _ _ => rfl) (fun _ _ => rfl) (fun _ _ => rfl) y
  · obtain ⟨t, ht⟩ := row_tile 1000 (by have := N_0; omega) win0_3.index (fun t => (idx_facts t).2.2.2) i
    refine ⟨t, flush0_3 t, ?_⟩
    show i ∈ ((View.whole main_v8).slice (win0_3.rect t)).set
    rw [View.set_slice_whole, Rect.mem_set_unit]
    exact ht

end Cert.KernelIdeal.LinVal0

end
-- ==== Proof.KernelIdeal.LinVal2.lean ====
import proofs.«414254_j90761248899606_1_alg».proof.Proof.KernelIdeal.Region2
import proofs.«414254_j90761248899606_1_alg».proof.Proof.KernelIdeal.LinSpec
import proofs.«414254_j90761248899606_1_alg».proof.Proof.KernelIdeal.BlockVal

noncomputable section

namespace Cert.KernelIdeal.LinVal2

open Idealize.ShloMosaic Idealize.ShloMosaic.TcCoe
open Cert.KernelIdeal.Gen Cert.KernelIdeal.GenP Cert.KernelIdeal.Body Cert.KernelIdeal.LinSpec Cert.KernelIdeal.BlockVal

theorem idx_facts : ∀ t : Fin cfg2.N, win2_0.index t = ![t.val, 0] ∧ win2_1.index t = ![0, 0] ∧ win2_2.index t = ![0, 0] ∧ win2_3.index t = ![t.val, 0] :=
  (by decide +kernel : ∀ t : Fin grid2.N, _)

variable (V : (c : Dev nD) → (b : Ref sig .tc) → Buf (Elt Ideal) ((c : Thread nD τ).loc b))

/-- Block t of the result is block t of the projection, and the twenty blocks of 1000 rows tile the array. -/
theorem lin2_arr (c : Dev nD) :
    (dat2 (F := Ideal) V c).arrAt 3 cfg2.N = linArr2 (V c main_v23) (V c main_v24) (V c main_v27) := by
  refine (dat2 (F := Ideal) V c).arrAt_eq_of_cover 3 _ (fun t _ => ?_) fun i => ?_
  · show (cfg2.win 3).cut (grid2.coords t) ((dat2 (F := Ideal) V c).after 3 t) = _
    rw [after2_3]
    unfold out2_3
    rw [View.canon_unit_zero zero_off]
    simp only [View.ld_unit_zero (S := S1000x256) zero_off, View.ld_unit_zero (S := S256x512) zero_off, View.ld_unit_zero (S := S1x512) zero_off]
    funext y
    exact lin_entry (pay := k2_pay1 (F := Ideal)) (fun x0 x1 x2 p q => by unfold k2_pay1; simp only [shapeCast_self]; exact pay_at _ _ _ x0 x1 x2 p q)
      (V c main_v23) (V c main_v24) (V c main_v27) ((cfg2.win 0).blk t).view.emb ((cfg2.win 1).blk t).view.emb ((cfg2.win 2).blk t).view.emb
      ((cfg2.win 3).blk t).view.emb (idx_facts t) (fun _ _ => rfl) (fun _ _ => rfl) (fun _ _ => rfl) (fun _ _ => rfl) y
  · obtain ⟨t, ht⟩ := row_tile 1000 (by have := N_2; omega) win2_3.index (fun t => (idx_facts t).2.2.2) i
    refine ⟨t, flush2_3 t, ?_⟩
    show i ∈ ((View.whole main_v28).slice (win2_3.rect t)).set
    rw [View.set_slice_whole, Rect.mem_set_unit]
    exact ht

end Cert.KernelIdeal.LinVal2

end
-- ==== Proof.KernelIdeal.LinVal4.lean ====
import proofs.«414254_j90761248899606_1_alg».proof.Proof.KernelIdeal.Region4
import proofs.«414254_j90761248899606_1_alg».proof.Proof.KernelIdeal.LinSpec
import proofs.«414254_j90761248899606_1_alg».proof.Proof.KernelIdeal.BlockVal

noncomputable section

namespace Cert.KernelIdeal.LinVal4

open Idealize.ShloMosaic Idealize.ShloMosaic.TcCoe
open Cert.KernelIdeal.Gen Cert.KernelIdeal.GenP Cert.KernelIdeal.Body Cert.KernelIdeal.LinSpec Cert.KernelIdeal.BlockVal

theorem idx_facts : ∀ t : Fin cfg4.N, win4_0.index t = ![t.val, 0] ∧ win4_1.index t = ![0, 0] ∧ win4_2.index t = ![0, 0] ∧ win4_3.index t = ![t.val, 0] :=
  (by decide +kernel : ∀ t : Fin grid4.N, _)

variable (V : (c : Dev nD) → (b : Ref sig .tc) → Buf (Elt Ideal) ((c : Thread nD τ).loc b))

/-- Block t of the result is block t of the projection, and the twenty blocks of 1000 rows tile the array. -/
theorem lin4_arr (c : Dev nD) :
    (dat4 (F := Ideal) V c).arrAt 3 cfg4.N = linArr4 (V c main_v43) (V c main_v44) (V c main_v47) := by
  refine (dat4 (F := Ideal) V c).arrAt_eq_of_cover 3 _ (fun t _ => ?_) fun i => ?_
  · show (cfg4.win 3).cut (grid4.coords t) ((dat4 (F := Ideal) V c).after 3 t) = _
    rw [after4_3]
    unfold out4_3
    rw [View.canon_unit_zero zero_off]
    simp only [View.ld_unit_zero (S := S1000x128) zero_off, View.ld_unit_zero (S := S128x256) zero_off, View.ld_unit_zero (S := S1x256) zero_off]
    funext y
    exact lin_entry (pay := k4_pay1 (F := Ideal)) (fun x0 x1 x2 p q => by unfold k4_pay1; simp only [shapeCast_self]; exact pay_at _ _ _ x0 x1 x2 p q)
      (V c main_v43) (V c main_v44) (V c main_v47) ((cfg4.win 0).blk t).view.emb ((cfg4.win 1).blk t).view.emb ((cfg4.win 2).blk t).view.emb
      ((cfg4.win 3).blk t).view.emb (idx_facts t) (fun _ _ => rfl) (fun _ _ => rfl) (fun _ _ => rfl) (fun _ _ => rfl) y
  · obtain ⟨t, ht⟩ := row_tile 1000 (by have := N_4; omega) win4_3.index (fun t => (idx_facts t).2.2.2) i
    refine ⟨t, flush4_3 t, ?_⟩
    show i ∈ ((View.whole main_v48).slice (win4_3.rect t)).set
    rw [View.set_slice_whole, Rect.mem_set_unit]
    exact ht

end Cert.KernelIdeal.LinVal4

end
-- ==== Proof.KernelIdeal.GateVal1.lean ====
import proofs.«414254_j90761248899606_1_alg».proof.Proof.KernelIdeal.Region1
import proofs.«414254_j90761248899606_1_alg».proof.Proof.KernelIdeal.BlockVal

noncomputable section

namespace Cert.KernelIdeal.GateVal1

open Idealize.ShloMosaic Idealize.ShloMosaic.TcCoe
open Cert.KernelIdeal.Gen Cert.KernelIdeal.GenP Cert.KernelIdeal.Body Cert.KernelIdeal.BlockVal

theorem index_facts : ∀ t : Fin cfg1.N, win1_0.index t = ![t.val, 0] ∧ win1_1.index t = ![t.val, 0] ∧ win1_2.index t = ![t.val, 0] ∧ win1_3.index t = ![t.val, 0] :=
  (by decide +kernel : ∀ t : Fin grid1.N, _)

variable (V : (c : Dev nD) → (b : Ref sig .tc) → Buf (Elt Ideal) ((c : Thread nD τ).loc b))

/-- Block t of the result is block t of the gate of the three arrays, and the 160 blocks of 2000 rows tile the array. -/
theorem gate1_arr (c : Dev nD) :
    (dat1 (F := Ideal) V c).arrAt 3 cfg1.N
      = mulf (Host.divf (broadcastInDim S320000x256 ![] bcast_S_S320000x256 (constant (F := Ideal) S_ .f32 0x3F800000#32))
          (addf (broadcastInDim S320000x256 ![] bcast_S_S320000x256 (constant (F := Ideal) S_ .f32 0x3F800000#32))
            (Host.exp (Host.negf (addf (V c main_v13) (V c main_v14)))))) (V c main_v15) := by
  refine (dat1 (F := Ideal) V c).arrAt_eq_of_cover 3 _ (fun t _ => ?_) fun i => ?_
  · show (cfg1.win 3).cut (grid1.coords t) ((dat1 V c).after 3 t) = _
    rw [after1_3]
    unfold out1_3
    rw [View.canon_unit_zero zero_off]
    simp only [View.ld_unit_zero (S := S2000x256) zero_off]
    funext y
    exact gate_entry (pay := k1_pay1 (F := Ideal)) (fun _ _ _ _ => by unfold k1_pay1; simp only [shapeCast_self]; rfl) bcast_S_S320000x256
      (V c main_v13) (V c main_v14) (V c main_v15) ((cfg1.win 0).blk t).view.emb ((cfg1.win 1).blk t).view.emb ((cfg1.win 2).blk t).view.emb
      ((cfg1.win 3).blk t).view.emb (index_facts t) (fun _ _ => rfl) (fun _ _ => rfl) (fun _ _ => rfl) (fun _ _ => rfl) y
  · obtain ⟨t, ht⟩ := row_tile 2000 (by have := N_1; omega) win1_3.index (fun t => (index_facts t).2.2.2) i
    refine ⟨t, flush1_3 t, ?_⟩
    show i ∈ ((View.whole main_v16).slice (win1_3.rect t)).set
    rw [View.set_slice_whole, Rect.mem_set_unit]
    exact ht

end Cert.KernelIdeal.GateVal1

end
-- ==== Proof.KernelIdeal.GateVal3.lean ====
import proofs.«414254_j90761248899606_1_alg».proof.Proof.KernelIdeal.Region3
import proofs.«414254_j90761248899606_1_alg».proof.Proof.KernelIdeal.BlockVal

noncomputable section

namespace Cert.KernelIdeal.GateVal3

open Idealize.ShloMosaic Idealize.ShloMosaic.TcCoe
open Cert.KernelIdeal.Gen Cert.KernelIdeal.GenP Cert.KernelIdeal.Body Cert.KernelIdeal.BlockVal

theorem index_facts : ∀ t : Fin cfg3.N, win3_0.index t = ![t.val, 0] ∧ win3_1.index t = ![t.val, 0] ∧ win3_2.index t = ![t.val, 0] ∧ win3_3.index t = ![t.val, 0] :=
  (by decide +kernel : ∀ t : Fin grid3.N, _)

variable (V : (c : Dev nD) → (b : Ref sig .tc) → Buf (Elt Ideal) ((c : Thread nD τ).loc b))

/-- Block t of the result is block t of the gate of the three arrays, and the 160 blocks of 2000 rows tile the array. -/
theorem gate3_arr (c : Dev nD) :
    (dat3 (F := Ideal) V c).arrAt 3 cfg3.N
      = mulf (Host.divf (broadcastInDim S320000x128 ![] bcast_S_S320000x128 (constant (F := Ideal) S_ .f32 0x3F800000#32))
          (addf (broadcastInDim S320000x128 ![] bcast_S_S320000x128 (constant (F := Ideal) S_ .f32 0x3F800000#32))
            (Host.exp (Host.negf (addf (V c main_v33) (V c main_v34)))))) (V c main_v35) := by
  refine (dat3 (F := Ideal) V c).arrAt_eq_of_cover 3 _ (fun t _ => ?_) fun i => ?_
  · show (cfg3.win 3).cut (grid3.coords t) ((dat3 V c).after 3 t) = _
    rw [after3_3]
    unfold out3_3
    rw [View.canon_unit_zero zero_off]
    simp only [View.ld_unit_zero (S := S2000x128) zero_off]
    funext y
    exact gate_entry (pay := k3_pay1 (F := Ideal)) (fun _ _ _ _ => by unfold k3_pay1; simp only [shapeCast_self]; rfl) bcast_S_S320000x128
      (V c main_v33) (V c main_v34) (V c main_v35) ((cfg3.win 0).blk t).view.emb ((cfg3.win 1).blk t).view.emb ((cfg3.win 2).blk t).view.emb
      ((cfg3.win 3).blk t).view.emb (index_facts t) (fun _ _ => rfl) (fun _ _ => rfl) (fun _ _ => rfl) (fun _ _ => rfl) y
  · obtain ⟨t, ht⟩ := row_tile 2000 (by have := N_3; omega) win3_3.index (fun t => (index_facts t).2.2.2) i
    refine ⟨t, flush3_3 t, ?_⟩
    show i ∈ ((View.whole main_v36).slice (win3_3.rect t)).set
    rw [View.set_slice_whole, Rect.mem_set_unit]
    exact ht

end Cert.KernelIdeal.GateVal3

end
-- ==== Proof.KernelIdeal.GateVal5.lean ====
import proofs.«414254_j90761248899606_1_alg».proof.Proof.KernelIdeal.Region5
import proofs.«414254_j90761248899606_1_alg».proof.Proof.KernelIdeal.BlockVal

noncomputable section

namespace Cert.KernelIdeal.GateVal5

open Idealize.ShloMosaic Idealize.ShloMosaic.TcCoe
open Cert.KernelIdeal.Gen Cert.KernelIdeal.GenP Cert.KernelIdeal.Body Cert.KernelIdeal.BlockVal

theorem index_facts : ∀ t : Fin cfg5.N, win5_0.index t = ![t.val, 0] ∧ win5_1.index t = ![t.val, 0] ∧ win5_2.index t = ![t.val, 0] ∧ win5_3.index t = ![t.val, 0] :=
  (by decide +kernel : ∀ t : Fin grid5.N, _)

variable (V : (c : Dev nD) → (b : Ref sig .tc) → Buf (Elt Ideal) ((c : Thread nD τ).loc b))

/-- Block t of the result is block t of the gate of the three arrays, and the 160 blocks of 2000 rows tile the array. -/
theorem gate5_arr (c : Dev nD) :
    (dat5 (F := Ideal) V c).arrAt 3 cfg5.N
      = mulf (Host.divf (broadcastInDim S320000x64 ![] bcast_S_S320000x64 (constant (F := Ideal) S_ .f32 0x3F800000#32))
          (addf (broadcastInDim S320000x64 ![] bcast_S_S320000x64 (constant (F := Ideal) S_ .f32 0x3F800000#32))
            (Host.exp (Host.negf (addf (V c main_v53) (V c main_v54)))))) (V c main_v55) := by
  refine (dat5 (F := Ideal) V c).arrAt_eq_of_cover 3 _ (fun t _ => ?_) fun i => ?_
  · show (cfg5.win 3).cut (grid5.coords t) ((dat5 V c).after 3 t) = _
    rw [after5_3]
    unfold out5_3
    rw [View.canon_unit_zero zero_off]
    simp only [View.ld_unit_zero (S := S2000x64) zero_off]
    funext y
    exact gate_entry (pay := k5_pay1 (F := Ideal)) (fun _ _ _ _ => by unfold k5_pay1; simp only [shapeCast_self]; rfl) bcast_S_S320000x64
      (V c main_v53) (V c main_v54) (V c main_v55) ((cfg5.win 0).blk t).view.emb ((cfg5.win 1).blk t).view.emb ((cfg5.win 2).blk t).view.emb
      ((cfg5.win 3).blk t).view.emb (index_facts t) (fun _ _ => rfl) (fun _ _ => rfl) (fun _ _ => rfl) (fun _ _ => rfl) y
  · obtain ⟨t, ht⟩ := row_tile 2000 (by have := N_5; omega) win5_3.index (fun t => (index_facts t).2.2.2) i
    refine ⟨t, flush5_3 t, ?_⟩
    show i ∈ ((View.whole main_v56).slice (win5_3.rect t)).set
    rw [View.set_slice_whole, Rect.mem_set_unit]
    exact ht

end Cert.KernelIdeal.GateVal5

end
-- ==== Proof.PreRange.lean ====
import proofs.«414254_j90761248899606_1_alg».proof.Proof.Gen.Pre_finite_inputs
import Idealize.ShloMosaic.Lib.ReduceAll

namespace Cert.PreRange

open Idealize.ShloMosaic Cert.Pre_finite_inputs

instance : Subsingleton S_.Idx := ⟨fun a b => funext fun d => d.elim0⟩

/-- The precondition's bit is the conjunction, over all entries, of the two range tests. -/
theorem edge_range {F : FTy → Type} [FloatOps F] (a0 : FVec F S20000x256 .f32) (a1 : IVec S2x320000 32) (a2 : FVec F S256x256 .f32) (a3 : FVec F S256 .f32) (a4 : FVec F S256x256 .f32) (a5 : FVec F S256 .f32) (a6 : FVec F S256x256 .f32) (a7 : FVec F S256 .f32) (a8 : FVec F S256x128 .f32) (a9 : FVec F S128 .f32) (a10 : FVec F S256x128 .f32) (a11 : FVec F S128 .f32) (a12 : FVec F S256x128 .f32) (a13 : FVec F S128 .f32) (a14 : FVec F S128x64 .f32) (a15 : FVec F S64 .f32) (a16 : FVec F S128x64 .f32) (a17 : FVec F S64 .f32) (a18 : FVec F S128x64 .f32) (a19 : FVec F S64 .f32) (a20 : FVec F S256x256 .f32) (a21 : FVec F S256 .f32) (a22 : FVec F S256x128 .f32) (a23 : FVec F S128 .f32) (a24 : FVec F S128x64 .f32) (a25 : FVec F S64 .f32)
    (h : Cert.Pre_finite_inputs.fn (F := F) a0 a1 a2 a3 a4 a5 a6 a7 a8 a9 a10 a11 a12 a13 a14 a15 a16 a17 a18 a19 a20 a21 a22 a23 a24 a25 = fun _ => 1#1) :
    ∀ i : S2x320000.Idx, 0 ≤ (a1 i).toInt ∧ (a1 i).toInt < 20000 := by
  intro i
  have h0 := congrFun h fun a => a.elim0
  dsimp only [fn, fn_part1, fn_part2, fn_part3, fn_part4, fn_part5, fn_part6, fn_part7] at h0
  obtain ⟨h1, hlt⟩ := IntOp.andi_eq_one.1 h0
  exact ⟨IntOp.cmpi_sge.1 (Host.reduce_andi_all _ _ _ _ _ (IntOp.andi_eq_one.1 h1).2 i),
    IntOp.cmpi_slt.1 (Host.reduce_andi_all _ _ _ _ _ hlt i)⟩

end Cert.PreRange
-- ==== Proof.Glue.lean ====
import proofs.«414254_j90761248899606_1_alg».proof.Proof.KernelIdeal.Reads
import proofs.«414254_j90761248899606_1_alg».proof.Proof.KernelIdeal.LinVal0
import proofs.«414254_j90761248899606_1_alg».proof.Proof.KernelIdeal.LinVal2
import proofs.«414254_j90761248899606_1_alg».proof.Proof.KernelIdeal.LinVal4
import proofs.«414254_j90761248899606_1_alg».proof.Proof.KernelIdeal.GateVal1
import proofs.«414254_j90761248899606_1_alg».proof.Proof.KernelIdeal.GateVal3
import proofs.«414254_j90761248899606_1_alg».proof.Proof.KernelIdeal.GateVal5
import proofs.«414254_j90761248899606_1_alg».proof.Proof.KernelIdeal.Run
import proofs.«414254_j90761248899606_1_alg».proof.Proof.PreRange
import proofs.«414254_j90761248899606_1_alg».proof.Defs

noncomputable section

namespace Cert.Glue

open Idealize.ShloMosaic Idealize.ShloMosaic.TcCoe Idealize.SL.Sem
open Cert.KernelIdeal Cert.KernelIdeal.Gen Cert.KernelIdeal.GenP Cert.KernelIdeal.Body Cert.KernelIdeal.LinSpec Cert.RefSide

section Layers

variable (m : (ℓ : Loc nD τ sig) → Buf (Elt Ideal) ℓ) (c : Dev nD)
variable (hs : ∀ e : S320000.Idx, 0 ≤ (srcOf (M m c main_arg1) e).toInt ∧ (srcOf (M m c main_arg1) e).toInt < 20000)
variable (hd : ∀ e : S320000.Idx, 0 ≤ (dstOf (M m c main_arg1) e).toInt ∧ (dstOf (M m c main_arg1) e).toInt < 20000)

include hs hd in
/-- With every edge index in range the fill-mode take is the plain gather; a column block of the fused projection is the reference's own projection. -/
theorem layer1_eq : VR (W8 m) c main_v23 = refLayer256 (F := Ideal) (M m c main_arg0) (srcOf (M m c main_arg1)) (dstOf (M m c main_arg1)) (M m c main_arg2) (M m c main_arg3) (M m c main_arg4) (M m c main_arg5) (M m c main_arg6) (M m c main_arg7) (M m c main_arg20) (M m c main_arg21) := by
  rw [W8_v23, show o7 m c = _ from GateVal1.gate1_arr (VR (W6 m)) c, W6_v13, W6_v14, W6_v15, show o2 m c = _ from LinVal0.lin0_arr (VR (W1 m)) c, W1_arg0, W1_v4, W1_v7]
  unfold take256
  rw [Take.take256 _ _ hd, Take.take256 _ _ hs, Take.take256 _ _ hs, Proj1.proj_k, Proj1.proj_q, Proj1.proj_v, Proj1.proj_skip]
  rfl

include hs hd in
theorem layer2_eq : VR (W15 m) c main_v43 = refLayer128 (F := Ideal) (VR (W8 m) c main_v23) (srcOf (M m c main_arg1)) (dstOf (M m c main_arg1)) (M m c main_arg8) (M m c main_arg9) (M m c main_arg10) (M m c main_arg11) (M m c main_arg12) (M m c main_arg13) (M m c main_arg22) (M m c main_arg23) := by
  rw [W15_v43, show o14 m c = _ from GateVal3.gate3_arr (VR (W13 m)) c, W13_v33, W13_v34, W13_v35, show o9 m c = _ from LinVal2.lin2_arr (VR (W8 m)) c, W8_v24, W8_v27]
  unfold take128
  rw [Take.take128 _ _ hd, Take.take128 _ _ hs, Take.take128 _ _ hs, Proj2.proj_k, Proj2.proj_q, Proj2.proj_v, Proj2.proj_skip]
  rfl

include hs hd in
theorem layer3_eq : W22 m c main_v74 = refSoftmax (F := Ideal) (refLayer64 (VR (W15 m) c main_v43) (srcOf (M m c main_arg1)) (dstOf (M m c main_arg1)) (M m c main_arg14) (M m c main_arg15) (M m c main_arg16) (M m c main_arg17) (M m c main_arg18) (M m c main_arg19) (M m c main_arg24) (M m c main_arg25)) := by
  rw [W22_v74, show o21 m c = _ from GateVal5.gate5_arr (VR (W20 m)) c, W20_v53, W20_v54, W20_v55, show o16 m c = _ from LinVal4.lin4_arr (VR (W15 m)) c, W15_v44, W15_v47]
  unfold take64
  rw [Take.take64 _ _ hd, Take.take64 _ _ hs, Take.take64 _ _ hs, Proj3.proj_k, Proj3.proj_q, Proj3.proj_v, Proj3.proj_skip]
  rfl

end Layers

/-- Both programs end with the same result: under the precondition the kernel program's result buffer is the reference's three layer functions and row softmax of the same arrays. -/
theorem algebraic : Cert.algebraic_KernelIdeal_ReferenceIdeal := fun m ρ m' ρ' hpre hagree =>
  ⟨fun c => W22 (F := Ideal) m c main_v74, run_result (F := Ideal) m ρ,
    (θ_run (Cert.ReferenceIdeal.defs (F := Ideal)) _ _).mono (fun r h c => ⟨(h c).1.trans (by
      beta_reduce
      obtain ⟨hs, hd⟩ := Take.row_range _ (Cert.PreRange.edge_range _ _ _ _ _ _ _ _ _ _ _ _ _ _ _ _ _ _ _ _ _ _ _ _ _ _ (hpre c))
      rw [result_eq, res_main_v150_eq, res_main_v101_eq, res_main_v52_eq, src_eq, dst_eq, layer3_eq m c hs hd, layer2_eq m c hs hd, layer1_eq m c hs hd]
      simp only [show ∀ r, StableHlo.launchContents m' c (Proc.devRef .tc r) = m' ((c.tc : Thread Cert.ReferenceIdeal.nD Cert.ReferenceIdeal.τ).loc r) from fun _ => rfl, hagree c]
      rfl), (h c).2⟩)
      (Cert.ReferenceIdeal.Value.run (F := Ideal) m' ρ')⟩

end Cert.Glue

end
-- ==== Proof.lean ====
import proofs.«414254_j90761248899606_1_alg».proof.Defs
import proofs.«414254_j90761248899606_1_alg».proof.Proof.Gen.Kernel
import proofs.«414254_j90761248899606_1_alg».proof.Proof.Gen.KernelIdeal
import proofs.«414254_j90761248899606_1_alg».proof.Proof.Gen.ReferenceIdeal
import proofs.«414254_j90761248899606_1_alg».proof.Proof.Gen.Pre_finite_inputs
import proofs.«414254_j90761248899606_1_alg».proof.Proof.Kernel.Run
import proofs.«414254_j90761248899606_1_alg».proof.Proof.KernelIdeal.Run
import proofs.«414254_j90761248899606_1_alg».proof.Proof.RefSide
import proofs.«414254_j90761248899606_1_alg».proof.Proof.Glue
import Idealize.ShloMosaic.Adequacy
import Idealize.ShloMosaic.Init

set_option maxRecDepth 65536
set_option maxHeartbeats 2000000

noncomputable section

namespace Cert.Proof

open Idealize.ShloMosaic Idealize.SL.Sem

theorem frame_ki : Cert.frame_KernelIdeal := fun m ρ _ =>
  (θ_run Cert.KernelIdeal.defs _ _).mono (fun _ h c => (h c).2) (Cert.KernelIdeal.Body.run_result (F := Ideal) m ρ)

theorem frame_ri : Cert.frame_ReferenceIdeal := fun m ρ _ =>
  (θ_run Cert.ReferenceIdeal.defs _ _).mono (fun _ h c => (h c).2) (Cert.ReferenceIdeal.Value.run (F := Ideal) m ρ)

-- Both kernel programs run to the end with their arguments unchanged, and the idealized one leaves the reference's result.
theorem claim : Cert.Claim :=
  ⟨Cert.Kernel.Gen.facts, Cert.KernelIdeal.Gen.facts, Cert.ReferenceIdeal.Gen.facts, Cert.Pre_finite_inputs.Gen.facts,
    Cert.Kernel.Body.frame, frame_ki, frame_ri, trivial, Cert.Glue.algebraic⟩

end Cert.Proof

end
